-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S32000x2048 : Shape := ⟨2, ![32000, 2048]⟩
abbrev S4096 : Shape := ⟨1, ![4096]⟩
abbrev S_ : Shape := ⟨0, ![]⟩
abbrev S2048 : Shape := ⟨1, ![2048]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  slices_S4096_S2048_0 : S4096.Slices ![0] S2048
  bcast_S_S2048 : S_.BroadcastsInDim S2048 (![] : Fin 0 → Fin S2048.rank)
  reducesTo_S2048_S_d0 : S2048.ReducesTo [0] S_

variable [Facts]

def fn_part1 {F : FTy → Type} [FloatOps F] (main_v8 : IVec S_ 1) (main_v16 : IVec S_ 1) : IVec S_ 1 :=
  let main_v17 : IVec S_ 1 := andi main_v8 main_v16
  main_v17

def fn {F : FTy → Type} [FloatOps F] (main_arg0 : FVec F S4096x2048 .f32) (main_arg1 : FVec F S32000x2048 .f32) (main_arg2 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : IVec S2048 32 := (extractStridedSlice S2048 ![0] · slices_S4096_S2048_0) main_arg2
  let main_c_2 : IVec S_ 32 := constantI S_ 32 4294935296#32
  let main_v10 : IVec S2048 32 := broadcastInDim S2048 ![] bcast_S_S2048 main_c_2
  let main_v11 : IVec S2048 1 := cmpi .sge main_v9 main_v10
  let main_v12 : IVec S2048 32 := (extractStridedSlice S2048 ![0] · slices_S4096_S2048_0) main_arg2
  let main_c_3 : IVec S_ 32 := constantI S_ 32 32000#32
  let main_v13 : IVec S2048 32 := broadcastInDim S2048 ![] bcast_S_S2048 main_c_3
  let main_v14 : IVec S2048 1 := cmpi .slt main_v12 main_v13
  let main_v15 : IVec S2048 1 := andi main_v11 main_v14
  let main_c_4 : IVec S_ 1 := constantI S_ 1 1#1
  let main_v16 : IVec S_ 1 := (fun x v => Host.reduce IntOp.andi x v reducesTo_S2048_S_d0 h_S_) main_v15 main_c_4
  fn_part1 (F := F) main_v8 main_v16
-- ==== Kernel.lean ====
abbrev S4096x2048 : Shape := ⟨2, ![4096, 2048]⟩
abbrev S32000x2048 : Shape := ⟨2, ![32000, 2048]⟩
abbrev S4096 : Shape := ⟨1, ![4096]⟩
abbrev S4096x1 : Shape := ⟨2, ![4096, 1]⟩
abbrev S2048x2048 : Shape := ⟨2, ![2048, 2048]⟩
abbrev S640x2048 : Shape := ⟨2, ![640, 2048]⟩
abbrev S2048x1 : Shape := ⟨2, ![2048, 1]⟩
abbrev S2048x640 : Shape := ⟨2, ![2048, 640]⟩
abbrev S2048 : Shape := ⟨1, ![2048]⟩
abbrev S_ : Shape := ⟨0, ![]⟩
abbrev S1 : Shape := ⟨1, ![1]⟩
abbrev S1x1 : Shape := ⟨2, ![1, 1]⟩

abbrev nBuf : Space → Nat
  | .hbm => 105
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S32000x2048, .f32⟩
  | .hbm, ⟨2, _⟩ => ⟨S4096, .i32⟩
  | .hbm, ⟨3, _⟩ => ⟨S4096x2048, .bf16⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S1, .i32⟩
  | .hbm, ⟨27, _⟩ => ⟨S_, .i32⟩
  | .hbm, ⟨28, _⟩ => ⟨S2048x1, .i32⟩
  | .hbm, ⟨29, _⟩ => ⟨S2048x1, .i1⟩
  | .hbm, ⟨30, _⟩ => ⟨S1x1, .i32⟩
  | .hbm, ⟨31, _⟩ => ⟨S2048x1, .i32⟩
  | .hbm, ⟨32, _⟩ => ⟨S2048x1, .i1⟩
  | .hbm, ⟨33, _⟩ => ⟨S2048x1, .i1⟩
  | .hbm, ⟨34, _⟩ => ⟨S_, .i1⟩
  | .hbm, ⟨35, _⟩ => ⟨S2048, .i1⟩
  | .hbm, ⟨36, _⟩ => ⟨S2048x2048, .f32⟩
  | .hbm, ⟨37, _⟩ => ⟨S2048x2048, .i1⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .bf16⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S_, .f32⟩
  | .hbm, ⟨62, _⟩ => ⟨S_, .f32⟩
  | .hbm, ⟨63, _⟩ => ⟨S2048, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S_, .f32⟩
  | .hbm, ⟨70, _⟩ => ⟨S2048, .f32⟩
  | .hbm, ⟨71, _⟩ => ⟨S2048, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S2048, .f32⟩
  | .hbm, ⟨79, _⟩ => ⟨S2048, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S2048, .f32⟩
  | .hbm, ⟨84, _⟩ => ⟨S2048, .f32⟩
  | .hbm, ⟨85, _⟩ => ⟨S2048, .f32⟩
  | .hbm, ⟨86, _⟩ => ⟨S2048, .f32⟩
  | .hbm, ⟨87, _⟩ => ⟨S2048, .i1⟩
  | .hbm, ⟨88, _⟩ => ⟨S2048, .f32⟩
  | .hbm, ⟨89, _⟩ => ⟨S2048, .f32⟩
  | .hbm, ⟨90, _⟩ => ⟨S2048, .f32⟩
  | .hbm, ⟨91, _⟩ => ⟨S2048, .f32⟩
  | .hbm, ⟨92, _⟩ => ⟨S2048, .f32⟩
  | .hbm, ⟨93, _⟩ => ⟨S2048, .f32⟩
  | .hbm, ⟨94, _⟩ => ⟨S2048, .f32⟩
  | .hbm, ⟨95, _⟩ => ⟨S2048, .f32⟩
  | .hbm, ⟨96, _⟩ => ⟨S2048, .f32⟩
  | .hbm, ⟨97, _⟩ => ⟨S_, .f32⟩
  | .hbm, ⟨98, _⟩ => ⟨S2048, .f32⟩
  | .hbm, ⟨99, _⟩ => ⟨S2048, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .local _ .vmem, ⟨0, _⟩ => ⟨S2048x2048, .bf16⟩
  | .local _ .vmem, ⟨1, _⟩ => ⟨S640x2048, .f32⟩
  | .local _ .vmem, ⟨2, _⟩ => ⟨S640x2048, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_v15 : Ref sig .tc := ⟨.hbm, 47, rfl⟩
abbrev main_cst_1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_call2_v0 : Ref sig .tc := ⟨.hbm, 58, rfl⟩
abbrev main_call2_v1 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_c_4 : Ref sig .tc := ⟨.hbm, 64, rfl⟩
abbrev main_v27 : Ref sig .tc := ⟨.hbm, 65, rfl⟩
abbrev main_c_5 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1 : Ref sig .tc := ⟨.hbm, 95, rfl⟩
abbrev main_v42 : Ref sig .tc := ⟨.hbm, 96, rfl⟩
abbrev main_cst_6 : Ref sig .tc := ⟨.hbm, 97, rfl⟩
abbrev main_v43 : Ref sig .tc := ⟨.hbm, 98, rfl⟩
abbrev main_v44 : Ref sig .tc := ⟨.hbm, 99, rfl⟩
abbrev main_cst_7 : Ref sig .tc := ⟨.hbm, 100, rfl⟩
abbrev main_v45 : Ref sig .tc := ⟨.hbm, 101, rfl⟩
abbrev main_cst_8 : Ref sig .tc := ⟨.hbm, 102, rfl⟩
abbrev main_v46 : Ref sig .tc := ⟨.hbm, 103, rfl⟩
abbrev main_v47 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v36 : BitVec 1 := Scalar.cmpi .eq arg1 c49_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S640x2048_S640x2048_0_0 : ∀ a, (![0, 0] : Fin 2 → Nat) a + S640x2048.size a ≤ S640x2048.size a
  h_S640x2048 : 0 < S640x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x640_S2048 : S2048x640.Reduces [1] S2048
  shapeCasts_S2048_S2048x1 : S2048.ShapeCasts S2048x1
  broadcasts_S2048x1_S2048x640 : S2048x1.Broadcasts S2048x640
  shapeCasts_S4096x1_S4096 : S4096x1.ShapeCasts S4096
  slices_S4096_S2048_0 : S4096.Slices ![0] S2048
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x2048_0 : S2048.BroadcastsInDim S2048x2048 (![0] : Fin 1 → Fin S2048x2048.rank)
  bcast_S_S2048x2048 : S_.BroadcastsInDim S2048x2048 (![] : Fin 0 → Fin S2048x2048.rank)
  slices_S4096x2048_S2048x2048_0_0 : S4096x2048.Slices ![0, 0] S2048x2048
  reducesTo_S2048x2048_S2048_d1 : S2048x2048.ReducesTo [1] S2048
  bcast_S_S4096 : S_.BroadcastsInDim S4096 (![] : Fin 0 → Fin S4096.rank)
  reducesTo_S2048_S_d0 : S2048.ReducesTo [0] S_
  natLt_1_32 : 1 < 32
  slices_S4096_S2048_2048 : S4096.Slices ![2048] S2048
  dot_S2048x2048_S640x2048_S2048x640_1_1_0_0_n_n_wf : DotDims.WF S2048x2048 S640x2048 S2048x640 [1] [1] [0] [0] [] []
  gather_S32000x2048_S2048x1_S2048x2048_1_0_n_n_0_1_12048_wf : GatherDims.WF S32000x2048 S2048x1 S2048x2048 [1] [0] [] [0] [] 1 ![1, 2048]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .bf16 = 32 ∨ (Rect.block (s := S4096x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)

variable [Facts₀]

def dot_S2048x2048_S640x2048_S2048x640_1_1_0_0_n_n : DotDims S2048x2048 S640x2048 S2048x640 where
  lhsContracting := [1]
  rhsContracting := [1]
  lhsNonContracting := [0]
  rhsNonContracting := [0]
  lhsBatch := []
  rhsBatch := []
  wf := dot_S2048x2048_S640x2048_S2048x640_1_1_0_0_n_n_wf
def gather_S32000x2048_S2048x1_S2048x2048_1_0_n_n_0_1_12048 : GatherDims S32000x2048 S2048x1 S2048x2048 where
  offsetDims := [1]
  collapsedSliceDims := [0]
  operandBatchingDims := []
  startIndicesBatchingDims := []
  startIndexMap := [0]
  indexVectorDim := 1
  sliceSizes := ![1, 2048]
  wf := gather_S32000x2048_S2048x1_S2048x2048_1_0_n_n_0_1_12048_wf

abbrev win0_0 : Pipeline.Window sig grid0 :=
  Pipeline.Window.ofSpec (Memref.whole main_v0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S32000x2048 : Shape := ⟨2, ![32000, 2048]⟩
abbrev S4096 : Shape := ⟨1, ![4096]⟩
abbrev S4096x32000 : Shape := ⟨2, ![4096, 32000]⟩
abbrev S2048x32000 : Shape := ⟨2, ![2048, 32000]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S4096x1 : Shape := ⟨2, ![4096, 1]⟩

abbrev nBuf : Space → Nat
  | .hbm => 121
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S32000x2048, .f32⟩
  | .hbm, ⟨2, _⟩ => ⟨S4096, .i32⟩
  | .hbm, ⟨3, _⟩ => ⟨S4096x32000, .f32⟩
  | .hbm, ⟨4, _⟩ => ⟨S2048x32000, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048x1, .f32⟩
  | .hbm, ⟨11, _⟩ => ⟨S2048x32000, .f32⟩
  | .hbm, ⟨12, _⟩ => ⟨S2048x32000, .f32⟩
  | .hbm, ⟨13, _⟩ => ⟨S2048x32000, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S2048x32000, .f32⟩
  | .hbm, ⟨19, _⟩ => ⟨S2048x32000, .f32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i1⟩
  | .hbm, ⟨32, _⟩ => ⟨S_, .i32⟩
  | .hbm, ⟨33, _⟩ => ⟨S2048x1, .i32⟩
  | .hbm, ⟨34, _⟩ => ⟨S2048x1, .i32⟩
  | .hbm, ⟨35, _⟩ => ⟨S2048x1, .i32⟩
  | .hbm, ⟨36, _⟩ => ⟨S2048x1x1, .i32⟩
  | .hbm, ⟨37, _⟩ => ⟨S1, .i32⟩
  | .hbm, ⟨38, _⟩ => ⟨S_, .i32⟩
  | .hbm, ⟨39, _⟩ => ⟨S2048x1x1, .i32⟩
  | .hbm, ⟨40, _⟩ => ⟨S2048x1x1, .i1⟩
  | .hbm, ⟨41, _⟩ => ⟨S1x1x1, .i32⟩
  | .hbm, ⟨42, _⟩ => ⟨S2048x1x1, .i32⟩
  | .hbm, ⟨43, _⟩ => ⟨S2048x1x1, .i1⟩
  | .hbm, ⟨44, _⟩ => ⟨S2048x1x1, .i1⟩
  | .hbm, ⟨45, _⟩ => ⟨S_, .i1⟩
  | .hbm, ⟨46, _⟩ => ⟨S2048x1, .i1⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048, .f32⟩
  | .hbm, ⟨52, _⟩ => ⟨S2048, .f32⟩
  | .hbm, ⟨53, _⟩ => ⟨S_, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S2048, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096x1, .f32⟩
  | .hbm, ⟨72, _⟩ => ⟨S4096x32000, .f32⟩
  | .hbm, ⟨73, _⟩ => ⟨S4096x32000, .f32⟩
  | .hbm, ⟨74, _⟩ => ⟨S4096x32000, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1, .f32⟩
  | .hbm, ⟨79, _⟩ => ⟨S4096x32000, .f32⟩
  | .hbm, ⟨80, _⟩ => ⟨S4096x32000, .f32⟩
  | .hbm, ⟨81, _⟩ => ⟨S_, .f32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S2048, .f32⟩
  | .hbm, ⟨87, _⟩ => ⟨S2048, .f32⟩
  | .hbm, ⟨88, _⟩ => ⟨S2048, .f32⟩
  | .hbm, ⟨89, _⟩ => ⟨S2048, .f32⟩
  | .hbm, ⟨90, _⟩ => ⟨S2048, .f32⟩
  | .hbm, ⟨91, _⟩ => ⟨S2048, .f32⟩
  | .hbm, ⟨92, _⟩ => ⟨S2048, .f32⟩
  | .hbm, ⟨93, _⟩ => ⟨S2048, .f32⟩
  | .hbm, ⟨94, _⟩ => ⟨S2048, .f32⟩
  | .hbm, ⟨95, _⟩ => ⟨S2048, .f32⟩
  | .hbm, ⟨96, _⟩ => ⟨S2048, .f32⟩
  | .hbm, ⟨97, _⟩ => ⟨S2048, .f32⟩
  | .hbm, ⟨98, _⟩ => ⟨S_, .f32⟩
  | .hbm, ⟨99, _⟩ => ⟨S2048, .f32⟩
  | .hbm, ⟨100, _⟩ => ⟨S2048, .f32⟩
  | .hbm, ⟨101, _⟩ => ⟨S2048, .f32⟩
  | .hbm, ⟨102, _⟩ => ⟨S2048, .f32⟩
  | .hbm, ⟨103, _⟩ => ⟨S2048, .i1⟩
  | .hbm, ⟨104, _⟩ => ⟨S2048, .f32⟩
  | .hbm, ⟨105, _⟩ => ⟨S2048, .f32⟩
  | .hbm, ⟨106, _⟩ => ⟨S2048, .f32⟩
  | .hbm, ⟨107, _⟩ => ⟨S2048, .f32⟩
  | .hbm, ⟨108, _⟩ => ⟨S2048, .f32⟩
  | .hbm, ⟨109, _⟩ => ⟨S2048, .f32⟩
  | .hbm, ⟨110, _⟩ => ⟨S2048, .f32⟩
  | .hbm, ⟨111, _⟩ => ⟨S2048, .f32⟩
  | .hbm, ⟨112, _⟩ => ⟨S2048, .f32⟩
  | .hbm, ⟨113, _⟩ => ⟨S_, .f32⟩
  | .hbm, ⟨114, _⟩ => ⟨S2048, .f32⟩
  | .hbm, ⟨115, _⟩ => ⟨S2048, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_v6 : Ref sig .tc := ⟨.hbm, 27, rfl⟩
abbrev main_v7 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_cst_1 : Ref sig .tc := ⟨.hbm, 57, rfl⟩
abbrev main_v12 : Ref sig .tc := ⟨.hbm, 58, rfl⟩
abbrev main_v13 : Ref sig .tc := ⟨.hbm, 59, rfl⟩
abbrev main_c_2 : Ref sig .tc := ⟨.hbm, 60, rfl⟩
abbrev main_v14 : Ref sig .tc := ⟨.hbm, 61, rfl⟩
abbrev main_c_3 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_call4_cst : Ref sig .tc := ⟨.hbm, 66, rfl⟩
abbrev main_call4_v0 : Ref sig .tc := ⟨.hbm, 67, rfl⟩
abbrev main_call4_cst_0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_v6 : Ref sig .tc := ⟨.hbm, 74, rfl⟩
abbrev main_call4_cst_1 : Ref sig .tc := ⟨.hbm, 75, rfl⟩
abbrev main_call4_v7 : Ref sig .tc := ⟨.hbm, 76, rfl⟩
abbrev main_call4_v8 : Ref sig .tc := ⟨.hbm, 77, rfl⟩
abbrev main_call4_v9 : Ref sig .tc := ⟨.hbm, 78, rfl⟩
abbrev main_call4_v10 : Ref sig .tc := ⟨.hbm, 79, rfl⟩
abbrev main_v18 : Ref sig .tc := ⟨.hbm, 80, rfl⟩
abbrev main_cst_4 : Ref sig .tc := ⟨.hbm, 81, rfl⟩
abbrev main_v19 : Ref sig .tc := ⟨.hbm, 82, rfl⟩
abbrev main_cst_5 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_call5_v0 : Ref sig .tc := ⟨.hbm, 97, rfl⟩
abbrev main_call5_call0_cst : Ref sig .tc := ⟨.hbm, 98, rfl⟩
abbrev main_call5_call0_v0 : Ref sig .tc := ⟨.hbm, 99, rfl⟩
abbrev main_call5_call0_v1 : Ref sig .tc := ⟨.hbm, 100, rfl⟩
abbrev main_call5_call0_v2 : Ref sig .tc := ⟨.hbm, 101, rfl⟩
abbrev main_call5_call0_v3 : Ref sig .tc := ⟨.hbm, 102, rfl⟩
abbrev main_call5_call0_v4 : Ref sig .tc := ⟨.hbm, 103, rfl⟩
abbrev main_call5_call0_v5 : Ref sig .tc := ⟨.hbm, 104, rfl⟩
abbrev main_call5_call0_v6 : Ref sig .tc := ⟨.hbm, 105, rfl⟩
abbrev main_call5_call0_v7 : Ref sig .tc := ⟨.hbm, 106, rfl⟩
abbrev main_call5_call0_v8 : Ref sig .tc := ⟨.hbm, 107, rfl⟩
abbrev main_call5_call0_v9 : Ref sig .tc := ⟨.hbm, 108, rfl⟩
abbrev main_call5_call0_v10 : Ref sig .tc := ⟨.hbm, 109, rfl⟩
abbrev main_call5_call0_v11 : Ref sig .tc := ⟨.hbm, 110, rfl⟩
abbrev main_call5_v1 : Ref sig .tc := ⟨.hbm, 111, rfl⟩
abbrev main_v33 : Ref sig .tc := ⟨.hbm, 112, rfl⟩
abbrev main_cst_6 : Ref sig .tc := ⟨.hbm, 113, rfl⟩
abbrev main_v34 : Ref sig .tc := ⟨.hbm, 114, rfl⟩
abbrev main_v35 : Ref sig .tc := ⟨.hbm, 115, rfl⟩
abbrev main_cst_7 : Ref sig .tc := ⟨.hbm, 116, rfl⟩
abbrev main_v36 : Ref sig .tc := ⟨.hbm, 117, rfl⟩
abbrev main_cst_8 : Ref sig .tc := ⟨.hbm, 118, rfl⟩
abbrev main_v37 : Ref sig .tc := ⟨.hbm, 119, rfl⟩
abbrev main_v38 : Ref sig .tc := ⟨.hbm, 120, rfl⟩

abbrev nD : Nat := 1
abbrev τ : Topo := Topo.v7x

variable {F : FTy → Type} [FloatOps F]

class Facts₀ : Prop where
  slices_S4096x32000_S2048x32000_0_0 : S4096x32000.Slices ![0, 0] S2048x32000
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  slices_S4096_S2048_0 : S4096.Slices ![0] S2048
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  natLt_1_32 : 1 < 32
  reducesTo_S4096x32000_S4096_d1 : S4096x32000.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  slices_S4096_S2048_2048 : S4096.Slices ![2048] S2048
  dot_S4096x2048_S32000x2048_S4096x32000_1_1_0_0_n_n_wf : DotDims.WF S4096x2048 S32000x2048 S4096x32000 [1] [1] [0] [0] [] []
  gather_S2048x32000_S2048x1x1_S2048x1_n_1_0_0_1_2_11_wf : GatherDims.WF S2048x32000 S2048x1x1 S2048x1 [] [1] [0] [1] [0] 2 ![1, 1]

variable [Facts₀]

def dot_S4096x2048_S32000x2048_S4096x32000_1_1_0_0_n_n : DotDims S4096x2048 S32000x2048 S4096x32000 where
  lhsContracting := [1]
  rhsContracting := [1]
  lhsNonContracting := [0]
  rhsNonContracting := [0]
  lhsBatch := []
  rhsBatch := []
  wf := dot_S4096x2048_S32000x2048_S4096x32000_1_1_0_0_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.K.Runs.lean ====
import proofs.«424783_j8701603741901_3_alg».proof.Proof.Gen.Kernel.Launch
import proofs.«424783_j8701603741901_3_alg».proof.Proof.Gen.Kernel.Skeleton
import proofs.«424783_j8701603741901_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

abbrev tailOps : List (List (HloOp τ sig (Elt F))) := [hostOps1, hostOps1_1, hostOps1_2, hostOps1_3, hostOps1_4, hostOps1_5, hostOps1_6, hostOps1_7]

theorem hostOps0_fresh : (hostOps0 : List (HloOp τ sig (Elt F))).Forall fun op => op.fresh = ∅ := by
  simp only [List.Forall]; repeat' constructor

set_option maxHeartbeats 8000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7]) :=
  Pipeline.hmain_around cfgs 0 defs₀ 𝒱₀ m main [hostOps0] [hostOps1, hostOps1_1, hostOps1_2, hostOps1_3, hostOps1_4, hostOps1_5, hostOps1_6, hostOps1_7] (by simp only [List.Forall]; exact hostOps0_sub)
    (by simp only [List.Forall]; exact hostOps0_fresh) main_chain

theorem sfx_sub : ∀ ops ∈ ([hostOps1, hostOps1_1, hostOps1_2, hostOps1_3, hostOps1_4, hostOps1_5, hostOps1_6, hostOps1_7] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

theorem fresh_of_forall {l : List (HloOp τ sig (Elt F))} (h : l.Forall fun op => op.fresh = ∅) : ∀ op ∈ l, op.fresh = ∅ :=
  List.forall_iff_forall_mem.mp h

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  all_goals exact fresh_of_forall (by simp only [List.Forall]; repeat' constructor) op hop

set_option maxHeartbeats 2000000 in
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl
  all_goals
    simp only [hostOps1, hostOps1_1, hostOps1_2, hostOps1_3, hostOps1_4, hostOps1_5, hostOps1_6, hostOps1_7, List.mem_cons, List.mem_nil_iff, or_false] at hop
    repeat' (rcases hop with rfl | hop)
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c)⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev VO0_2 : View sig .tc .vmem S2048x1 .f32 := (Memref.whole cc0_stg2_0 : Memref sig .tc .vmem S2048x1 .f32).view
abbrev VO0_3 : View sig .tc .vmem S2048x1 .f32 := (Memref.whole cc0_stg3_0 : Memref sig .tc .vmem S2048x1 .f32).view
abbrev VO0_4 : View sig .tc .vmem S2048x1 .f32 := (Memref.whole cc0_stg4_0 : Memref sig .tc .vmem S2048x1 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)

abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x1 .f32 := Memref.whole cc0_scratch2
abbrev VS0_0 : View sig .tc .vmem S2048x1 .f32 := scM0_0.view
abbrev VS0_1 : View sig .tc .vmem S2048x1 .f32 := scM0_1.view
abbrev VS0_2 : View sig .tc .vmem S2048x1 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.K.RunA.lean ====
import proofs.«424783_j8701603741901_3_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x2048 .bf16) (x1 : Vec F S640x2048 .f32) :
    Σ' (L2 : List (View.Piece (Elt F) S2048x1 .f32)) (L3 : List (View.Piece (Elt F) S2048x1 .f32)) (L4 : List (View.Piece (Elt F) S2048x1 .f32)) (LS0 : List (View.Piece (Elt F) S2048x1 .f32)) (LS1 : List (View.Piece (Elt F) S2048x1 .f32)), { LS2 : List (View.Piece (Elt F) S2048x1 .f32) //
      ∀ (xi2 xi3 xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__lmhead_kernel i arg2 harg2 arg3 harg3 arg4 harg4 arg5 harg5 arg6 harg6 arg7 harg7 arg8 harg8 arg9 harg9) K } := by
  refine ⟨[], [], [], ?_, ?_, ?_, fun xi2 xi3 xi4 E K => ?run⟩
  case run =>
    simp only [cc0__lmhead_kernel_eq_skeleton]; unfold cc0__lmhead_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.RunB.lean ====
import proofs.«424783_j8701603741901_3_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x2048 .bf16) (x1 : Vec F S640x2048 .f32) (xs0 : Vec F S2048x1 .f32) (xs1 : Vec F S2048x1 .f32) (xs2 : Vec F S2048x1 .f32) :
    Σ' (L2 : List (View.Piece (Elt F) S2048x1 .f32)) (L3 : List (View.Piece (Elt F) S2048x1 .f32)) (L4 : List (View.Piece (Elt F) S2048x1 .f32)) (LS0 : List (View.Piece (Elt F) S2048x1 .f32)) (LS1 : List (View.Piece (Elt F) S2048x1 .f32)), { LS2 : List (View.Piece (Elt F) S2048x1 .f32) //
      ∀ (xi2 xi3 xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__lmhead_kernel i arg2 harg2 arg3 harg3 arg4 harg4 arg5 harg5 arg6 harg6 arg7 harg7 arg8 harg8 arg9 harg9) K } := by
  refine ⟨[], [], [], ?_, ?_, ?_, fun xi2 xi3 xi4 E K => ?run⟩
  case run =>
    simp only [cc0__lmhead_kernel_eq_skeleton]; unfold cc0__lmhead_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.RunC.lean ====
import proofs.«424783_j8701603741901_3_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S640x2048 .f32) (xs0 : Vec F S2048x1 .f32) (xs1 : Vec F S2048x1 .f32) (xs2 : Vec F S2048x1 .f32) :
    Σ' (L2 : List (View.Piece (Elt F) S2048x1 .f32)) (L3 : List (View.Piece (Elt F) S2048x1 .f32)) (L4 : List (View.Piece (Elt F) S2048x1 .f32)) (LS0 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__lmhead_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__lmhead_kernel_eq_skeleton]; unfold cc0__lmhead_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.Frame.lean ====
import proofs.«424783_j8701603741901_3_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords)
  (arg2 : Memref sig .tc .vmem S2048x2048 .bf16) (harg2 : arg2.IsWhole) (arg3 : Memref sig .tc .vmem S640x2048 .f32) (harg3 : arg3.IsWhole)
  (arg4 : Memref sig .tc .vmem S2048x1 .f32) (harg4 : arg4.IsWhole) (arg5 : Memref sig .tc .vmem S2048x1 .f32) (harg5 : arg5.IsWhole)
  (arg6 : Memref sig .tc .vmem S2048x1 .f32) (harg6 : arg6.IsWhole) (arg7 : Memref sig .tc .vmem S2048x1 .f32) (harg7 : arg7.IsWhole)
  (arg8 : Memref sig .tc .vmem S2048x1 .f32) (harg8 : arg8.IsWhole) (arg9 : Memref sig .tc .vmem S2048x1 .f32) (harg9 : arg9.IsWhole)

section
variable (hc0 : cond0_0 i) (hc1 : ¬cond0_1 i) (x0 : Vec F S2048x2048 .bf16) (x1 : Vec F S640x2048 .f32)

theorem scover0_A_0 (y : S2048x1.Idx) :
    ∃ pc ∈ (kernelRun0_A c i arg2 harg2 arg3 harg3 arg4 harg4 arg5 harg5 arg6 harg6 arg7 harg7 arg8 harg8 arg9 harg9 hc0 hc1 x0 x1).2.2.2.1, y ∈ pc.1.set :=
  View.cover_of_tiledL _ S2048x1.size (by sl_kernel_rfl) y

def sout0_A_0 : Vec F S2048x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1).2.2.2.1)

theorem scover0_A_1 (y : S2048x1.Idx) :
    ∃ pc ∈ (kernelRun0_A c i arg2 harg2 arg3 harg3 arg4 harg4 arg5 harg5 arg6 harg6 arg7 harg7 arg8 harg8 arg9 harg9 hc0 hc1 x0 x1).2.2.2.2.1, y ∈ pc.1.set :=
  View.cover_of_tiledL _ S2048x1.size (by sl_kernel_rfl) y

def sout0_A_1 : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1).2.2.2.2.1)

theorem scover0_A_2 (y : S2048x1.Idx) :
    ∃ pc ∈ (kernelRun0_A c i arg2 harg2 arg3 harg3 arg4 harg4 arg5 harg5 arg6 harg6 arg7 harg7 arg8 harg8 arg9 harg9 hc0 hc1 x0 x1).2.2.2.2.2.1, y ∈ pc.1.set :=
  View.cover_of_tiledL _ S2048x1.size (by sl_kernel_rfl) y

def sout0_A_2 : Vec F S2048x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1).2.2.2.2.2.1)

def out0_A_2 : Vec F S2048x1 .f32 :=
  VO0_2.read (Elt F) (VO0_2.writes (Elt F) VO0_2.junk (kernelRun0_A c i arg2 harg2 arg3 harg3 arg4 harg4 arg5 harg5 arg6 harg6 arg7 harg7 arg8 harg8 arg9 harg9 hc0 hc1 x0 x1).1)

def out0_A_3 : Vec F S2048x1 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1).2.1)

def out0_A_4 : Vec F S2048x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1).2.2.1)

end

section
variable (hc0 : ¬cond0_0 i) (hc1 : ¬cond0_1 i) (x0 : Vec F S2048x2048 .bf16) (x1 : Vec F S640x2048 .f32) (xs0 xs1 xs2 : Vec F S2048x1 .f32)

theorem scover0_B_0 (y : S2048x1.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.1, y ∈ pc.1.set :=
  View.cover_of_tiledL _ S2048x1.size (by sl_kernel_rfl) y

def sout0_B_0 : Vec F S2048x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 xs0 xs1 xs2).2.2.2.1)

theorem scover0_B_1 (y : S2048x1.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL _ S2048x1.size (by sl_kernel_rfl) y

def sout0_B_1 : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 xs0 xs1 xs2).2.2.2.2.1)

theorem scover0_B_2 (y : S2048x1.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL _ S2048x1.size (by sl_kernel_rfl) y

def sout0_B_2 : Vec F S2048x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 xs0 xs1 xs2).2.2.2.2.2.1)

def out0_B_2 : Vec F S2048x1 .f32 :=
  VO0_2.read (Elt F) (VO0_2.writes (Elt F) VO0_2.junk (kernelRun0_B c i arg2 harg2 arg3 harg3 arg4 harg4 arg5 harg5 arg6 harg6 arg7 harg7 arg8 harg8 arg9 harg9 hc0 hc1 x0 x1 xs0 xs1 xs2).1)

def out0_B_3 : Vec F S2048x1 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 xs0 xs1 xs2).2.1)

def out0_B_4 : Vec F S2048x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 xs0 xs1 xs2).2.2.1)

end

section
variable (hc0 : ¬cond0_0 i) (hc1 : cond0_1 i) (x0 : Vec F S2048x2048 .bf16) (x1 : Vec F S640x2048 .f32) (xs0 xs1 xs2 : Vec F S2048x1 .f32)

theorem scover0_C_0 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.2.2.1, y ∈ pc.1.set :=
  View.cover_of_tiledL _ S2048x1.size (by sl_kernel_rfl) y

def sout0_C_0 : Vec F S2048x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 xs0 xs1 xs2).2.2.2.1)

theorem scover0_C_1 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL _ S2048x1.size (by sl_kernel_rfl) y

def sout0_C_1 : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 xs0 xs1 xs2).2.2.2.2.1)

theorem scover0_C_2 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL _ S2048x1.size (by sl_kernel_rfl) y

def sout0_C_2 : Vec F S2048x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 xs0 xs1 xs2).2.2.2.2.2.1)

theorem cover0_C_2 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).1, y ∈ pc.1.set :=
  View.cover_of_tiledL _ S2048x1.size (by sl_kernel_rfl) y

def out0_C_2 : Vec F S2048x1 .f32 :=
  VO0_2.read (Elt F) (VO0_2.writes (Elt F) VO0_2.junk (kernelRun0_C c i arg2 harg2 arg3 harg3 arg4 harg4 arg5 harg5 arg6 harg6 arg7 harg7 arg8 harg8 arg9 harg9 hc0 hc1 x0 x1 xs0 xs1 xs2).1)

theorem cover0_C_3 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.1, y ∈ pc.1.set :=
  View.cover_of_tiledL _ S2048x1.size (by sl_kernel_rfl) y

def out0_C_3 : Vec F S2048x1 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 xs0 xs1 xs2).2.1)

theorem cover0_C_4 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.2.1, y ∈ pc.1.set :=
  View.cover_of_tiledL _ S2048x1.size (by sl_kernel_rfl) y

def out0_C_4 : Vec F S2048x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 xs0 xs1 xs2).2.2.1)

end

end

abbrev Cols (F : FTy → Type) := Vec F S2048x1 .f32 × Vec F S2048x1 .f32 × Vec F S2048x1 .f32 × Vec F S2048x1 .f32 × Vec F S2048x1 .f32 × Vec F S2048x1 .f32

/-- The three output and three scratch columns after a point of vocabulary tile 0. -/
def colsA (c : Dev nD) (t : Fin cfg0.N) (h0 : t.val % 50 = 0) (h1 : ¬t.val % 50 = 49) : Cols F :=
  let app (f : type_of% (@out0_A_2 F _)) : Vec F S2048x1 .f32 :=
    f c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _)
      ((hcond0_0 t).mpr h0) (fun h => h1 ((hcond0_1 t).mp h)) (iblk m c 0 t) (iblk m c 1 t)
  (app out0_A_2, app out0_A_3, app out0_A_4, app sout0_A_0, app sout0_A_1, app sout0_A_2)

/-- The same after a point of a middle tile, from the columns `p` the point before left. -/
def colsB (c : Dev nD) (t : Fin cfg0.N) (h0 : ¬t.val % 50 = 0) (h1 : ¬t.val % 50 = 49) (p : Cols F) : Cols F :=
  let app (f : type_of% (@out0_B_2 F _)) : Vec F S2048x1 .f32 :=
    f c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _)
      (fun h => h0 ((hcond0_0 t).mp h)) (fun h => h1 ((hcond0_1 t).mp h)) (iblk m c 0 t) (iblk m c 1 t) p.2.2.2.1 p.2.2.2.2.1 p.2.2.2.2.2
  (app out0_B_2, app out0_B_3, app out0_B_4, app sout0_B_0, app sout0_B_1, app sout0_B_2)

/-- The same after a point of vocabulary tile 49. -/
def colsC (c : Dev nD) (t : Fin cfg0.N) (h0 : ¬t.val % 50 = 0) (h1 : t.val % 50 = 49) (p : Cols F) : Cols F :=
  let app (f : type_of% (@out0_C_2 F _)) : Vec F S2048x1 .f32 :=
    f c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _)
      (fun h => h0 ((hcond0_0 t).mp h)) ((hcond0_1 t).mpr h1) (iblk m c 0 t) (iblk m c 1 t) p.2.2.2.1 p.2.2.2.2.1 p.2.2.2.2.2
  (app out0_C_2, app out0_C_3, app out0_C_4, app sout0_C_0, app sout0_C_1, app sout0_C_2)

/-- The columns after position `n`: the case is read off `n % 50`, and only tile 0 ignores the position before. -/
def outsAt0 (c : Dev nD) : (n : ℕ) → n < cfg0.N → Cols F
  | 0, hn => colsA m c ⟨0, hn⟩ (Nat.zero_mod _) (by decide : ¬0 % 50 = 49)
  | n + 1, hn =>
    if h0 : (n + 1) % 50 = 0 then
      if h1 : (n + 1) % 50 = 49 then False.elim (by omega) else colsA m c ⟨n + 1, hn⟩ h0 h1
    else
      if h1 : (n + 1) % 50 = 49 then colsC m c ⟨n + 1, hn⟩ h0 h1 (outsAt0 c n (Nat.lt_of_succ_lt hn))
      else colsB m c ⟨n + 1, hn⟩ h0 h1 (outsAt0 c n (Nat.lt_of_succ_lt hn))

theorem outsAt0_A (c : Dev nD) (t : Fin cfg0.N) (h0 : t.val % 50 = 0) (h1 : ¬t.val % 50 = 49) :
    outsAt0 m c t.val t.isLt = colsA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 50 = 0) (h1 : ¬t.val % 50 = 49) :
    outsAt0 m c t.val t.isLt = colsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 50 = 0) (h1 : t.val % 50 = 49) :
    outsAt0 m c t.val t.isLt = colsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At every position the invariant entails its entry form: each scratch column at something. -/
theorem Phi_weaken (c : Dev nD) (t : Fin (cfg0.N + 1)) : (dats m 0 c).Φ t ⊢ Pipeline.ΦA spec0 c := by
  rw [show (dats m 0 c).Φ t = PhiS m c t.val (Nat.le_of_lt_succ t.isLt) from rfl]
  by_cases ht : t.val = 0
  · exact Entails.of_eq (PhiS_zero m c _ _ ht)
  · rw [PhiS_pos m c _ _ ht, PhiA0_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 100 := lt_of_lt_of_eq t.isLt (show cfg0.N = 100 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 50 = 0
  · by_cases h1 : t.val % 50 = 49
    · exfalso; omega
    ·
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold colsA; dsimp only; unfold sout0_A_0 sout0_A_1 sout0_A_2; (try dsimp only)
      refine (sep_mono_left (Phi_weaken m c t.castSucc)).trans ?_
      rw [PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t)).2.2.2.2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
  · by_cases h1 : t.val % 50 = 49
    ·
      rw [show (dats m 0 c).leavesExact 2 t = owns (c : Thread nD τ) (ms0_2 t) fullShare ((dats m 0 c).after 2 t) from by
        unfold Dat.leavesExact; rw [liveAt0_2 t ((hcond0_1 t).mpr h1)], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold colsC; dsimp only; unfold out0_C_2 out0_C_3 out0_C_4 sout0_C_0 sout0_C_1 sout0_C_2; (try dsimp only)
      by_cases hz : t.val = 0
      · exfalso; omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) _ _ _).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _)
    ·
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold colsB; dsimp only; unfold sout0_B_0 sout0_B_1 sout0_B_2; (try dsimp only)
      by_cases hz : t.val = 0
      · exfalso; omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexists _; iexact H2
        isplitl [H3]; · iexists _; iexact H3
        iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := Phi_weaken m c _

set_option maxHeartbeats 8000000 in
set_option backward.isDefEq.respectTransparency.types false in
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Runs.lean ====
import proofs.«424783_j8701603741901_3_alg».proof.Proof.Gen.KernelIdeal.Launch
import proofs.«424783_j8701603741901_3_alg».proof.Proof.Gen.KernelIdeal.Skeleton
import proofs.«424783_j8701603741901_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

abbrev tailOps : List (List (HloOp τ sig (Elt F))) := [hostOps1, hostOps1_1, hostOps1_2, hostOps1_3, hostOps1_4, hostOps1_5, hostOps1_6, hostOps1_7]

theorem hostOps0_fresh : (hostOps0 : List (HloOp τ sig (Elt F))).Forall fun op => op.fresh = ∅ := by
  simp only [List.Forall]; repeat' constructor

set_option maxHeartbeats 8000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7]) :=
  Pipeline.hmain_around cfgs 0 defs₀ 𝒱₀ m main [hostOps0] [hostOps1, hostOps1_1, hostOps1_2, hostOps1_3, hostOps1_4, hostOps1_5, hostOps1_6, hostOps1_7] (by simp only [List.Forall]; exact hostOps0_sub)
    (by simp only [List.Forall]; exact hostOps0_fresh) main_chain

theorem sfx_sub : ∀ ops ∈ ([hostOps1, hostOps1_1, hostOps1_2, hostOps1_3, hostOps1_4, hostOps1_5, hostOps1_6, hostOps1_7] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

theorem fresh_of_forall {l : List (HloOp τ sig (Elt F))} (h : l.Forall fun op => op.fresh = ∅) : ∀ op ∈ l, op.fresh = ∅ :=
  List.forall_iff_forall_mem.mp h

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  all_goals exact fresh_of_forall (by simp only [List.Forall]; repeat' constructor) op hop

set_option maxHeartbeats 2000000 in
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl
  all_goals
    simp only [hostOps1, hostOps1_1, hostOps1_2, hostOps1_3, hostOps1_4, hostOps1_5, hostOps1_6, hostOps1_7, List.mem_cons, List.mem_nil_iff, or_false] at hop
    repeat' (rcases hop with rfl | hop)
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c)⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev VO0_2 : View sig .tc .vmem S2048x1 .f32 := (Memref.whole cc0_stg2_0 : Memref sig .tc .vmem S2048x1 .f32).view
abbrev VO0_3 : View sig .tc .vmem S2048x1 .f32 := (Memref.whole cc0_stg3_0 : Memref sig .tc .vmem S2048x1 .f32).view
abbrev VO0_4 : View sig .tc .vmem S2048x1 .f32 := (Memref.whole cc0_stg4_0 : Memref sig .tc .vmem S2048x1 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)

abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x1 .f32 := Memref.whole cc0_scratch2
abbrev VS0_0 : View sig .tc .vmem S2048x1 .f32 := scM0_0.view
abbrev VS0_1 : View sig .tc .vmem S2048x1 .f32 := scM0_1.view
abbrev VS0_2 : View sig .tc .vmem S2048x1 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
import proofs.«424783_j8701603741901_3_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x2048 .bf16) (x1 : Vec F S640x2048 .f32) :
    Σ' (L2 : List (View.Piece (Elt F) S2048x1 .f32)) (L3 : List (View.Piece (Elt F) S2048x1 .f32)) (L4 : List (View.Piece (Elt F) S2048x1 .f32)) (LS0 : List (View.Piece (Elt F) S2048x1 .f32)) (LS1 : List (View.Piece (Elt F) S2048x1 .f32)), { LS2 : List (View.Piece (Elt F) S2048x1 .f32) //
      ∀ (xi2 xi3 xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__lmhead_kernel i arg2 harg2 arg3 harg3 arg4 harg4 arg5 harg5 arg6 harg6 arg7 harg7 arg8 harg8 arg9 harg9) K } := by
  refine ⟨[], [], [], ?_, ?_, ?_, fun xi2 xi3 xi4 E K => ?run⟩
  case run =>
    simp only [cc0__lmhead_kernel_eq_skeleton]; unfold cc0__lmhead_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.RunB.lean ====
import proofs.«424783_j8701603741901_3_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x2048 .bf16) (x1 : Vec F S640x2048 .f32) (xs0 : Vec F S2048x1 .f32) (xs1 : Vec F S2048x1 .f32) (xs2 : Vec F S2048x1 .f32) :
    Σ' (L2 : List (View.Piece (Elt F) S2048x1 .f32)) (L3 : List (View.Piece (Elt F) S2048x1 .f32)) (L4 : List (View.Piece (Elt F) S2048x1 .f32)) (LS0 : List (View.Piece (Elt F) S2048x1 .f32)) (LS1 : List (View.Piece (Elt F) S2048x1 .f32)), { LS2 : List (View.Piece (Elt F) S2048x1 .f32) //
      ∀ (xi2 xi3 xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__lmhead_kernel i arg2 harg2 arg3 harg3 arg4 harg4 arg5 harg5 arg6 harg6 arg7 harg7 arg8 harg8 arg9 harg9) K } := by
  refine ⟨[], [], [], ?_, ?_, ?_, fun xi2 xi3 xi4 E K => ?run⟩
  case run =>
    simp only [cc0__lmhead_kernel_eq_skeleton]; unfold cc0__lmhead_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.RunC.lean ====
import proofs.«424783_j8701603741901_3_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S640x2048 .f32) (xs0 : Vec F S2048x1 .f32) (xs1 : Vec F S2048x1 .f32) (xs2 : Vec F S2048x1 .f32) :
    Σ' (L2 : List (View.Piece (Elt F) S2048x1 .f32)) (L3 : List (View.Piece (Elt F) S2048x1 .f32)) (L4 : List (View.Piece (Elt F) S2048x1 .f32)) (LS0 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__lmhead_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__lmhead_kernel_eq_skeleton]; unfold cc0__lmhead_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.Frame.lean ====
import proofs.«424783_j8701603741901_3_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords)
  (arg2 : Memref sig .tc .vmem S2048x2048 .bf16) (harg2 : arg2.IsWhole) (arg3 : Memref sig .tc .vmem S640x2048 .f32) (harg3 : arg3.IsWhole)
  (arg4 : Memref sig .tc .vmem S2048x1 .f32) (harg4 : arg4.IsWhole) (arg5 : Memref sig .tc .vmem S2048x1 .f32) (harg5 : arg5.IsWhole)
  (arg6 : Memref sig .tc .vmem S2048x1 .f32) (harg6 : arg6.IsWhole) (arg7 : Memref sig .tc .vmem S2048x1 .f32) (harg7 : arg7.IsWhole)
  (arg8 : Memref sig .tc .vmem S2048x1 .f32) (harg8 : arg8.IsWhole) (arg9 : Memref sig .tc .vmem S2048x1 .f32) (harg9 : arg9.IsWhole)

section
variable (hc0 : cond0_0 i) (hc1 : ¬cond0_1 i) (x0 : Vec F S2048x2048 .bf16) (x1 : Vec F S640x2048 .f32)

theorem scover0_A_0 (y : S2048x1.Idx) :
    ∃ pc ∈ (kernelRun0_A c i arg2 harg2 arg3 harg3 arg4 harg4 arg5 harg5 arg6 harg6 arg7 harg7 arg8 harg8 arg9 harg9 hc0 hc1 x0 x1).2.2.2.1, y ∈ pc.1.set :=
  View.cover_of_tiledL _ S2048x1.size (by sl_kernel_rfl) y

def sout0_A_0 : Vec F S2048x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1).2.2.2.1)

theorem scover0_A_1 (y : S2048x1.Idx) :
    ∃ pc ∈ (kernelRun0_A c i arg2 harg2 arg3 harg3 arg4 harg4 arg5 harg5 arg6 harg6 arg7 harg7 arg8 harg8 arg9 harg9 hc0 hc1 x0 x1).2.2.2.2.1, y ∈ pc.1.set :=
  View.cover_of_tiledL _ S2048x1.size (by sl_kernel_rfl) y

def sout0_A_1 : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1).2.2.2.2.1)

theorem scover0_A_2 (y : S2048x1.Idx) :
    ∃ pc ∈ (kernelRun0_A c i arg2 harg2 arg3 harg3 arg4 harg4 arg5 harg5 arg6 harg6 arg7 harg7 arg8 harg8 arg9 harg9 hc0 hc1 x0 x1).2.2.2.2.2.1, y ∈ pc.1.set :=
  View.cover_of_tiledL _ S2048x1.size (by sl_kernel_rfl) y

def sout0_A_2 : Vec F S2048x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1).2.2.2.2.2.1)

def out0_A_2 : Vec F S2048x1 .f32 :=
  VO0_2.read (Elt F) (VO0_2.writes (Elt F) VO0_2.junk (kernelRun0_A c i arg2 harg2 arg3 harg3 arg4 harg4 arg5 harg5 arg6 harg6 arg7 harg7 arg8 harg8 arg9 harg9 hc0 hc1 x0 x1).1)

def out0_A_3 : Vec F S2048x1 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1).2.1)

def out0_A_4 : Vec F S2048x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1).2.2.1)

end

section
variable (hc0 : ¬cond0_0 i) (hc1 : ¬cond0_1 i) (x0 : Vec F S2048x2048 .bf16) (x1 : Vec F S640x2048 .f32) (xs0 xs1 xs2 : Vec F S2048x1 .f32)

theorem scover0_B_0 (y : S2048x1.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.1, y ∈ pc.1.set :=
  View.cover_of_tiledL _ S2048x1.size (by sl_kernel_rfl) y

def sout0_B_0 : Vec F S2048x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 xs0 xs1 xs2).2.2.2.1)

theorem scover0_B_1 (y : S2048x1.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL _ S2048x1.size (by sl_kernel_rfl) y

def sout0_B_1 : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 xs0 xs1 xs2).2.2.2.2.1)

theorem scover0_B_2 (y : S2048x1.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL _ S2048x1.size (by sl_kernel_rfl) y

def sout0_B_2 : Vec F S2048x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 xs0 xs1 xs2).2.2.2.2.2.1)

def out0_B_2 : Vec F S2048x1 .f32 :=
  VO0_2.read (Elt F) (VO0_2.writes (Elt F) VO0_2.junk (kernelRun0_B c i arg2 harg2 arg3 harg3 arg4 harg4 arg5 harg5 arg6 harg6 arg7 harg7 arg8 harg8 arg9 harg9 hc0 hc1 x0 x1 xs0 xs1 xs2).1)

def out0_B_3 : Vec F S2048x1 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 xs0 xs1 xs2).2.1)

def out0_B_4 : Vec F S2048x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 xs0 xs1 xs2).2.2.1)

end

section
variable (hc0 : ¬cond0_0 i) (hc1 : cond0_1 i) (x0 : Vec F S2048x2048 .bf16) (x1 : Vec F S640x2048 .f32) (xs0 xs1 xs2 : Vec F S2048x1 .f32)

theorem scover0_C_0 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.2.2.1, y ∈ pc.1.set :=
  View.cover_of_tiledL _ S2048x1.size (by sl_kernel_rfl) y

def sout0_C_0 : Vec F S2048x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 xs0 xs1 xs2).2.2.2.1)

theorem scover0_C_1 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL _ S2048x1.size (by sl_kernel_rfl) y

def sout0_C_1 : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 xs0 xs1 xs2).2.2.2.2.1)

theorem scover0_C_2 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL _ S2048x1.size (by sl_kernel_rfl) y

def sout0_C_2 : Vec F S2048x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 xs0 xs1 xs2).2.2.2.2.2.1)

theorem cover0_C_2 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).1, y ∈ pc.1.set :=
  View.cover_of_tiledL _ S2048x1.size (by sl_kernel_rfl) y

def out0_C_2 : Vec F S2048x1 .f32 :=
  VO0_2.read (Elt F) (VO0_2.writes (Elt F) VO0_2.junk (kernelRun0_C c i arg2 harg2 arg3 harg3 arg4 harg4 arg5 harg5 arg6 harg6 arg7 harg7 arg8 harg8 arg9 harg9 hc0 hc1 x0 x1 xs0 xs1 xs2).1)

theorem cover0_C_3 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.1, y ∈ pc.1.set :=
  View.cover_of_tiledL _ S2048x1.size (by sl_kernel_rfl) y

def out0_C_3 : Vec F S2048x1 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 xs0 xs1 xs2).2.1)

theorem cover0_C_4 (y : S2048x1.Idx) :
    ∃ pc ∈ (kernelRun0_C c i arg2 harg2 arg3 harg3 arg4 harg4 arg5 harg5 arg6 harg6 arg7 harg7 arg8 harg8 arg9 harg9 hc0 hc1 x0 x1 xs0 xs1 xs2).2.2.1, y ∈ pc.1.set :=
  View.cover_of_tiledL _ S2048x1.size (by sl_kernel_rfl) y

def out0_C_4 : Vec F S2048x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 xs0 xs1 xs2).2.2.1)

end

end

abbrev Cols (F : FTy → Type) := Vec F S2048x1 .f32 × Vec F S2048x1 .f32 × Vec F S2048x1 .f32 × Vec F S2048x1 .f32 × Vec F S2048x1 .f32 × Vec F S2048x1 .f32

/-- The three output and three scratch columns after a point of vocabulary tile 0. -/
def colsA (c : Dev nD) (t : Fin cfg0.N) (h0 : t.val % 50 = 0) (h1 : ¬t.val % 50 = 49) : Cols F :=
  let app (f : type_of% (@out0_A_2 F _)) : Vec F S2048x1 .f32 :=
    f c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _)
      ((hcond0_0 t).mpr h0) (fun h => h1 ((hcond0_1 t).mp h)) (iblk m c 0 t) (iblk m c 1 t)
  (app out0_A_2, app out0_A_3, app out0_A_4, app sout0_A_0, app sout0_A_1, app sout0_A_2)

/-- The same after a point of a middle tile, from the columns `p` the point before left. -/
def colsB (c : Dev nD) (t : Fin cfg0.N) (h0 : ¬t.val % 50 = 0) (h1 : ¬t.val % 50 = 49) (p : Cols F) : Cols F :=
  let app (f : type_of% (@out0_B_2 F _)) : Vec F S2048x1 .f32 :=
    f c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _)
      (fun h => h0 ((hcond0_0 t).mp h)) (fun h => h1 ((hcond0_1 t).mp h)) (iblk m c 0 t) (iblk m c 1 t) p.2.2.2.1 p.2.2.2.2.1 p.2.2.2.2.2
  (app out0_B_2, app out0_B_3, app out0_B_4, app sout0_B_0, app sout0_B_1, app sout0_B_2)

/-- The same after a point of vocabulary tile 49. -/
def colsC (c : Dev nD) (t : Fin cfg0.N) (h0 : ¬t.val % 50 = 0) (h1 : t.val % 50 = 49) (p : Cols F) : Cols F :=
  let app (f : type_of% (@out0_C_2 F _)) : Vec F S2048x1 .f32 :=
    f c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _)
      (fun h => h0 ((hcond0_0 t).mp h)) ((hcond0_1 t).mpr h1) (iblk m c 0 t) (iblk m c 1 t) p.2.2.2.1 p.2.2.2.2.1 p.2.2.2.2.2
  (app out0_C_2, app out0_C_3, app out0_C_4, app sout0_C_0, app sout0_C_1, app sout0_C_2)

/-- The columns after position `n`: the case is read off `n % 50`, and only tile 0 ignores the position before. -/
def outsAt0 (c : Dev nD) : (n : ℕ) → n < cfg0.N → Cols F
  | 0, hn => colsA m c ⟨0, hn⟩ (Nat.zero_mod _) (by decide : ¬0 % 50 = 49)
  | n + 1, hn =>
    if h0 : (n + 1) % 50 = 0 then
      if h1 : (n + 1) % 50 = 49 then False.elim (by omega) else colsA m c ⟨n + 1, hn⟩ h0 h1
    else
      if h1 : (n + 1) % 50 = 49 then colsC m c ⟨n + 1, hn⟩ h0 h1 (outsAt0 c n (Nat.lt_of_succ_lt hn))
      else colsB m c ⟨n + 1, hn⟩ h0 h1 (outsAt0 c n (Nat.lt_of_succ_lt hn))

theorem outsAt0_A (c : Dev nD) (t : Fin cfg0.N) (h0 : t.val % 50 = 0) (h1 : ¬t.val % 50 = 49) :
    outsAt0 m c t.val t.isLt = colsA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 50 = 0) (h1 : ¬t.val % 50 = 49) :
    outsAt0 m c t.val t.isLt = colsB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 50 = 0) (h1 : t.val % 50 = 49) :
    outsAt0 m c t.val t.isLt = colsC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At every position the invariant entails its entry form: each scratch column at something. -/
theorem Phi_weaken (c : Dev nD) (t : Fin (cfg0.N + 1)) : (dats m 0 c).Φ t ⊢ Pipeline.ΦA spec0 c := by
  rw [show (dats m 0 c).Φ t = PhiS m c t.val (Nat.le_of_lt_succ t.isLt) from rfl]
  by_cases ht : t.val = 0
  · exact Entails.of_eq (PhiS_zero m c _ _ ht)
  · rw [PhiS_pos m c _ _ ht, PhiA0_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 100 := lt_of_lt_of_eq t.isLt (show cfg0.N = 100 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 50 = 0
  · by_cases h1 : t.val % 50 = 49
    · exfalso; omega
    ·
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold colsA; dsimp only; unfold sout0_A_0 sout0_A_1 sout0_A_2; (try dsimp only)
      refine (sep_mono_left (Phi_weaken m c t.castSucc)).trans ?_
      rw [PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t)).2.2.2.2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
  · by_cases h1 : t.val % 50 = 49
    ·
      rw [show (dats m 0 c).leavesExact 2 t = owns (c : Thread nD τ) (ms0_2 t) fullShare ((dats m 0 c).after 2 t) from by
        unfold Dat.leavesExact; rw [liveAt0_2 t ((hcond0_1 t).mpr h1)], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold colsC; dsimp only; unfold out0_C_2 out0_C_3 out0_C_4 sout0_C_0 sout0_C_1 sout0_C_2; (try dsimp only)
      by_cases hz : t.val = 0
      · exfalso; omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) _ _ _).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _)
    ·
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold colsB; dsimp only; unfold sout0_B_0 sout0_B_1 sout0_B_2; (try dsimp only)
      by_cases hz : t.val = 0
      · exfalso; omega
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexists _; iexact H2
        isplitl [H3]; · iexists _; iexact H3
        iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := Phi_weaken m c _

set_option maxHeartbeats 8000000 in
set_option backward.isDefEq.respectTransparency.types false in
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.LibGatherRows.lean ====
import Idealize.ShloMosaic.PureOps
import Idealize.ShloMosaic.Lib.ValueIdx

noncomputable section

namespace Idealize.ShloMosaic.RowGather

open Idealize.ShloMosaic Idealize.ShloMosaic.ValueIdx

variable {α : Type}

abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

def clampRow (N : Nat) (hN : 0 < N) {w : Nat} (i : BitVec w) : Fin N :=
  ⟨min i.toInt.toNat (N - 1), by omega⟩

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

def wrap (i : BitVec 32) : BitVec 32 :=
  Scalar.select (IntOp.cmpi .slt i 0#32) (IntOp.addi i 100000#32) i

private theorem toInt_zero32 : (0#32 : BitVec 32).toInt = 0 := by decide
private theorem toInt_n32 : (100000#32 : BitVec 32).toInt = 100000 := by decide
private theorem toInt_m32 : (99999#32 : BitVec 32).toInt = 99999 := by decide

private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.Spec.lean ====
import Idealize.ShloMosaic.PureOps
import Idealize.ShloMosaic.Lib.ValueIdx
import proofs.«424783_j8701603741901_3_alg».proof.Proof.LibGatherRows

noncomputable section

namespace Cert.Spec

open Idealize.ShloMosaic Idealize.ShloMosaic.ValueIdx Idealize.ShloMosaic.RowGather

abbrev SX : Shape := ⟨2, ![4096, 2048]⟩
abbrev SW : Shape := ⟨2, ![32000, 2048]⟩
abbrev SY : Shape := ⟨1, ![4096]⟩
abbrev SB : Shape := ⟨1, ![4096]⟩
abbrev SH : Shape := ⟨1, ![2048]⟩
abbrev S0 : Shape := ⟨0, ![]⟩

def xr (x : FVec Ideal SX .f32) (b : Fin 4096) (h : Fin 2048) : ℝ := (x (ix2 b h)).toReal

def wr (W : FVec Ideal SW .f32) (v : Fin 32000) (h : Fin 2048) : ℝ := (W (ix2 v h)).toReal

def logit (x : FVec Ideal SX .f32) (W : FVec Ideal SW .f32) (b : Fin 4096) (v : Fin 32000) : ℝ :=
  ∑ h : Fin 2048, xr x b h * wr W v h

def rowMax (x : FVec Ideal SX .f32) (W : FVec Ideal SW .f32) (b : Fin 4096) : ℝ :=
  Finset.univ.sup' ⟨(⟨0, by decide⟩ : Fin 32000), Finset.mem_univ _⟩ (logit x W b)

def sumExp (x : FVec Ideal SX .f32) (W : FVec Ideal SW .f32) (b : Fin 4096) : ℝ :=
  ∑ v : Fin 32000, Real.exp (logit x W b v - rowMax x W b)

def rowSum (x : FVec Ideal SX .f32) (W : FVec Ideal SW .f32) (b : Fin 4096) : ℝ :=
  ∑ v : Fin 32000, logit x W b v

def alpR (x : FVec Ideal SX .f32) (W : FVec Ideal SW .f32) (b : Fin 4096) : ℝ :=
  rowSum x W b / 32000 - rowMax x W b - Real.log (sumExp x W b)

abbrev up (b : Fin 2048) : Fin 4096 := ⟨b.val, by omega⟩

def label (y : IVec SY 32) (b : Fin 2048) : BitVec 32 := y (ix1 (up b))

def validW (y : IVec SY 32) (b : Fin 2048) : BitVec 1 := IntOp.cmpi .ne (label y b) 4294967196#32

def safeW (y : IVec SY 32) (b : Fin 2048) : BitVec 32 := Scalar.select (validW y b) (label y b) 0#32

def wrapW (i : BitVec 32) : BitVec 32 := Scalar.select (IntOp.cmpi .slt i 0#32) (IntOp.addi i 32000#32) i

def tgt (y : IVec SY 32) (b : Fin 2048) : Fin 32000 := clampRow 32000 (by decide) (wrapW (safeW y b))

def nllR (x : FVec Ideal SX .f32) (W : FVec Ideal SW .f32) (y : IVec SY 32) (b : Fin 2048) : ℝ :=
  rowMax x W (up b) + Real.log (sumExp x W (up b)) - logit x W (up b) (tgt y b)

def alpSpec (x : FVec Ideal SX .f32) (W : FVec Ideal SW .f32) : FVec Ideal SB .f32 := fun i => ((alpR x W (i 0) : ℝ) : EReal)

def nllSpec (x : FVec Ideal SX .f32) (W : FVec Ideal SW .f32) (y : IVec SY 32) : FVec Ideal SH .f32 :=
  fun i => Scalar.select (validW y (i 0)) ((nllR x W y (i 0) : ℝ) : EReal) (0 : EReal)

def validVec (y : IVec SY 32) : IVec SH 1 := fun i => validW y (i 0)

theorem slices0 : SB.Slices ![0] SH := by decide
theorem slices1 : SB.Slices ![2048] SH := by decide
theorem bcastH : S0.BroadcastsInDim SH (![] : Fin 0 → Fin SH.rank) := by decide
theorem redH : SH.ReducesTo [0] S0 := by decide
theorem pos0 : 0 < S0.numel := by decide
theorem lt132 : 1 < 32 := by decide

def logSigmoid (z : FVec Ideal SH .f32) : FVec Ideal SH .f32 :=
  let a : FVec Ideal SH .f32 := Host.negf z
  let c0 : FVec Ideal S0 .f32 := constant S0 .f32 0x00000000#32
  let z0 : FVec Ideal SH .f32 := broadcastInDim SH ![] bcastH c0
  let mx : FVec Ideal SH .f32 := maximumf a z0
  let z1 : FVec Ideal SH .f32 := broadcastInDim SH ![] bcastH c0
  let d : FVec Ideal SH .f32 := subf a z1
  let g : IVec SH 1 := cmpf .une d d
  let z2 : FVec Ideal SH .f32 := broadcastInDim SH ![] bcastH c0
  let s : FVec Ideal SH .f32 := addf a z2
  let ab : FVec Ideal SH .f32 := Host.absf d
  let nb : FVec Ideal SH .f32 := Host.negf ab
  let ex : FVec Ideal SH .f32 := Host.exp nb
  let lp : FVec Ideal SH .f32 := Host.log1p ex
  let sm : FVec Ideal SH .f32 := addf mx lp
  let sp : FVec Ideal SH .f32 := select g s sm
  Host.negf sp

def ceTerm (nll : FVec Ideal SH .f32) (valid : IVec SH 1) : FVec Ideal S0 .f32 :=
  let tot : FVec Ideal S0 .f32 := Host.reduceAdd nll (constant S0 .f32 0x00000000#32) redH pos0
  let cnt : IVec S0 32 := Host.reduce IntOp.addi (extui 32 valid lt132) (constantI S0 32 0#32) redH pos0
  let den : FVec Ideal S0 .f32 := sitofp .f32 (maxsi cnt (constantI S0 32 1#32))
  Host.divf tot den

def orTerm (alp : FVec Ideal SB .f32) : FVec Ideal S0 .f32 :=
  let ch : FVec Ideal SH .f32 := extractStridedSlice SH ![0] alp slices0
  let rj : FVec Ideal SH .f32 := extractStridedSlice SH ![2048] alp slices1
  let df : FVec Ideal SH .f32 := subf ch rj
  let lc : FVec Ideal SH .f32 := Host.log1p (Host.negf (Host.exp ch))
  let lr : FVec Ideal SH .f32 := Host.log1p (Host.negf (Host.exp rj))
  let lo : FVec Ideal SH .f32 := subf df (subf lc lr)
  let ls : FVec Ideal SH .f32 := logSigmoid lo
  let sc : FVec Ideal SH .f32 := mulf (broadcastInDim SH ![] bcastH (constant S0 .f32 0x3DCCCCCD#32)) ls
  let tot : FVec Ideal S0 .f32 := Host.reduceAdd sc (constant S0 .f32 0x00000000#32) redH pos0
  Host.divf tot (constant S0 .f32 0x45000000#32)

def tail (alp : FVec Ideal SB .f32) (nll : FVec Ideal SH .f32) (valid : IVec SH 1) : FVec Ideal S0 .f32 :=
  subf (ceTerm nll valid) (orTerm alp)

def result (x : FVec Ideal SX .f32) (W : FVec Ideal SW .f32) (y : IVec SY 32) : FVec Ideal S0 .f32 :=
  tail (alpSpec x W) (nllSpec x W y) (validVec y)

structure Good (x : FVec Ideal SX .f32) (W : FVec Ideal SW .f32) (y : IVec SY 32) : Prop where
  hx : ∀ i, x i = (((x i).toReal : ℝ) : EReal)
  hW : ∀ i, W i = (((W i).toReal : ℝ) : EReal)
  hy : ∀ b : Fin 2048, IntOp.cmpi .sge (wrapW (safeW y b)) 0#32 = 1#1 ∧ IntOp.cmpi .sle (wrapW (safeW y b)) 31999#32 = 1#1

end Cert.Spec

end
-- ==== Proof.KOut.lean ====
import proofs.«424783_j8701603741901_3_alg».proof.KernelIdeal
import proofs.«424783_j8701603741901_3_alg».proof.Proof.Gen.KernelIdeal
import proofs.«424783_j8701603741901_3_alg».proof.Proof.Spec

noncomputable section

namespace Cert.KernelIdeal.KOut

open Idealize.ShloMosaic
open Cert.KernelIdeal Cert.KernelIdeal.Facts₀

def kValid (y : IVec S4096 32) : IVec S2048 1 :=
  let v5 : IVec S2048 32 := extractStridedSlice S2048 ![0] y slices_S4096_S2048_0
  let c : IVec S_ 32 := constantI S_ 32 4294967196#32
  let v6 : IVec S2048 32 := broadcastInDim S2048 ![] bcast_S_S2048 c
  cmpi .ne v5 v6

def kAlp (Mo Lo So : FVec Ideal S4096x1 .f32) : FVec Ideal S4096 .f32 :=
  let v2 : FVec Ideal S4096 .f32 := shapeCast S4096 Mo shapeCasts_S4096x1_S4096
  let v3 : FVec Ideal S4096 .f32 := shapeCast S4096 Lo shapeCasts_S4096x1_S4096
  let v4 : FVec Ideal S4096 .f32 := shapeCast S4096 So shapeCasts_S4096x1_S4096
  let cst_1 : FVec Ideal S_ .f32 := constant S_ .f32 0x46FA0000#32
  let v16 : FVec Ideal S4096 .f32 := broadcastInDim S4096 ![] bcast_S_S4096 cst_1
  let v17 : FVec Ideal S4096 .f32 := Host.divf v4 v16
  let v18 : FVec Ideal S4096 .f32 := subf v17 v2
  subf v18 v3

def kNll (Mo Lo : FVec Ideal S4096x1 .f32) (xb : FVec Ideal S4096x2048 .bf16)
    (W : FVec Ideal S32000x2048 .f32) (y : IVec S4096 32) : FVec Ideal S2048 .f32 :=

  let v2 : FVec Ideal S4096 .f32 := shapeCast S4096 Mo shapeCasts_S4096x1_S4096
  let v3 : FVec Ideal S4096 .f32 := shapeCast S4096 Lo shapeCasts_S4096x1_S4096

  let v5 : IVec S2048 32 := extractStridedSlice S2048 ![0] y slices_S4096_S2048_0
  let v7 : IVec S2048 1 := kValid y
  let c_0 : IVec S_ 32 := constantI S_ 32 0#32
  let a_v0 : IVec S_ 32 := id c_0
  let a_v1 : IVec S2048 32 := broadcastInDim S2048 ![] bcast_S_S2048 a_v0
  let v8 : IVec S2048 32 := select v7 v5 a_v1

  let t_c : IVec S_ 32 := constantI S_ 32 0#32
  let t_v0 : IVec S2048 32 := broadcastInDim S2048 ![] bcast_S_S2048 t_c
  let t_v1 : IVec S2048 1 := cmpi .slt v8 t_v0
  let t_c_0 : IVec S_ 32 := constantI S_ 32 32000#32
  let t_v2 : IVec S2048 32 := broadcastInDim S2048 ![] bcast_S_S2048 t_c_0
  let t_v3 : IVec S2048 32 := addi v8 t_v2
  let t_v4 : IVec S2048 32 := select t_v1 t_v3 v8
  let t_v5 : IVec S2048x1 32 := broadcastInDim S2048x1 ![0] bcast_S2048_S2048x1_0 t_v4
  let t_c_1 : IVec S1 32 := constantI S1 32 31999#32
  let t_c_2 : IVec S_ 32 := constantI S_ 32 0#32
  let t_v6 : IVec S2048x1 32 := broadcastInDim S2048x1 ![] bcast_S_S2048x1 t_c_2
  let t_v7 : IVec S2048x1 1 := cmpi .sge t_v5 t_v6
  let t_v8 : IVec S1x1 32 := broadcastInDim S1x1 ![1] bcast_S1_S1x1_1 t_c_1
  let t_v9 : IVec S2048x1 32 := broadcastInDim S2048x1 ![0, 1] bcast_S1x1_S2048x1_0_1 t_v8
  let t_v10 : IVec S2048x1 1 := cmpi .sle t_v5 t_v9
  let t_v11 : IVec S2048x1 1 := andi t_v7 t_v10
  let t_c_3 : IVec S_ 1 := constantI S_ 1 1#1
  let t_v12 : IVec S2048 1 := Host.reduce IntOp.andi t_v11 t_c_3 reducesTo_S2048x1_S2048_d1 h_S_
  let t_v13 : FVec Ideal S2048x2048 .f32 :=
    Host.gather gather_S32000x2048_S2048x1_S2048x2048_1_0_n_n_0_1_12048 W t_v5
  let t_v14 : IVec S2048x2048 1 := broadcastInDim S2048x2048 ![0] bcast_S2048_S2048x2048_0 t_v12
  let t_cst : FVec Ideal S_ .f32 := constant S_ .f32 0x7FC00000#32
  let t_v15 : FVec Ideal S2048x2048 .f32 := broadcastInDim S2048x2048 ![] bcast_S_S2048x2048 t_cst
  let v9 : FVec Ideal S2048x2048 .f32 := select t_v14 t_v13 t_v15

  let v10 : FVec Ideal S2048x2048 .bf16 := truncf .bf16 v9 bitsLt_bf16_f32
  let v11 : FVec Ideal S2048x2048 .bf16 :=
    extractStridedSlice S2048x2048 ![0, 0] xb slices_S4096x2048_S2048x2048_0_0
  let v12 : FVec Ideal S2048x2048 .f32 := extf .f32 v11 bitsLt_bf16_f32
  let v13 : FVec Ideal S2048x2048 .f32 := extf .f32 v10 bitsLt_bf16_f32
  let v14 : FVec Ideal S2048x2048 .f32 := mulf v12 v13
  let cst : FVec Ideal S_ .f32 := constant S_ .f32 0x00000000#32
  let v15 : FVec Ideal S2048 .f32 := Host.reduceAdd v14 cst reducesTo_S2048x2048_S2048_d1 h_S_

  let v20 : FVec Ideal S2048 .f32 := extractStridedSlice S2048 ![0] v2 slices_S4096_S2048_0
  let v21 : FVec Ideal S2048 .f32 := extractStridedSlice S2048 ![0] v3 slices_S4096_S2048_0
  let v22 : FVec Ideal S2048 .f32 := addf v20 v21
  let v23 : FVec Ideal S2048 .f32 := subf v22 v15

  let cst_2 : FVec Ideal S_ .f32 := constant S_ .f32 0x00000000#32
  let d_v0 : FVec Ideal S_ .f32 := id cst_2
  let d_v1 : FVec Ideal S2048 .f32 := broadcastInDim S2048 ![] bcast_S_S2048 d_v0
  select v7 v23 d_v1

def out (Mo Lo So : FVec Ideal S4096x1 .f32) (xb : FVec Ideal S4096x2048 .bf16)
    (W : FVec Ideal S32000x2048 .f32) (y : IVec S4096 32) : FVec Ideal S_ .f32 :=
  Cert.Spec.tail (kAlp Mo Lo So) (kNll Mo Lo xb W y) (kValid y)

end Cert.KernelIdeal.KOut

end
-- ==== Proof.KI.TailVal.lean ====
import proofs.«424783_j8701603741901_3_alg».proof.Proof.KI.Frame
import proofs.«424783_j8701603741901_3_alg».proof.Proof.KOut
import Idealize.ShloMosaic.Lib.StableHlo.Run

set_option maxRecDepth 16384

noncomputable section

namespace Cert.KernelIdeal.HandVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

section Pieces

def takeFn (W : FVec Ideal S32000x2048 .f32) (v8 : IVec S2048 32) : FVec Ideal S2048x2048 .f32 :=
  let t_c : IVec S_ 32 := constantI S_ 32 0#32
  let t_v0 : IVec S2048 32 := broadcastInDim S2048 ![] Facts₀.bcast_S_S2048 t_c
  let t_v1 : IVec S2048 1 := cmpi .slt v8 t_v0
  let t_c_0 : IVec S_ 32 := constantI S_ 32 32000#32
  let t_v2 : IVec S2048 32 := broadcastInDim S2048 ![] Facts₀.bcast_S_S2048 t_c_0
  let t_v3 : IVec S2048 32 := addi v8 t_v2
  let t_v4 : IVec S2048 32 := select t_v1 t_v3 v8
  let t_v5 : IVec S2048x1 32 := broadcastInDim S2048x1 ![0] Facts₀.bcast_S2048_S2048x1_0 t_v4
  let t_c_1 : IVec S1 32 := constantI S1 32 31999#32
  let t_c_2 : IVec S_ 32 := constantI S_ 32 0#32
  let t_v6 : IVec S2048x1 32 := broadcastInDim S2048x1 ![] Facts₀.bcast_S_S2048x1 t_c_2
  let t_v7 : IVec S2048x1 1 := cmpi .sge t_v5 t_v6
  let t_v8 : IVec S1x1 32 := broadcastInDim S1x1 ![1] Facts₀.bcast_S1_S1x1_1 t_c_1
  let t_v9 : IVec S2048x1 32 := broadcastInDim S2048x1 ![0, 1] Facts₀.bcast_S1x1_S2048x1_0_1 t_v8
  let t_v10 : IVec S2048x1 1 := cmpi .sle t_v5 t_v9
  let t_v11 : IVec S2048x1 1 := andi t_v7 t_v10
  let t_c_3 : IVec S_ 1 := constantI S_ 1 1#1
  let t_v12 : IVec S2048 1 := Host.reduce IntOp.andi t_v11 t_c_3 Facts₀.reducesTo_S2048x1_S2048_d1 Facts₀.h_S_
  let t_v13 : FVec Ideal S2048x2048 .f32 :=
    Host.gather gather_S32000x2048_S2048x1_S2048x2048_1_0_n_n_0_1_12048 W t_v5
  let t_v14 : IVec S2048x2048 1 := broadcastInDim S2048x2048 ![0] Facts₀.bcast_S2048_S2048x2048_0 t_v12
  let t_cst : FVec Ideal S_ .f32 := constant S_ .f32 0x7FC00000#32
  let t_v15 : FVec Ideal S2048x2048 .f32 := broadcastInDim S2048x2048 ![] Facts₀.bcast_S_S2048x2048 t_cst
  select t_v14 t_v13 t_v15

def alpFn (v2 v3 v4 : FVec Ideal S4096 .f32) : FVec Ideal S4096 .f32 :=
  let cst_1 : FVec Ideal S_ .f32 := constant S_ .f32 0x46FA0000#32
  let v16 : FVec Ideal S4096 .f32 := broadcastInDim S4096 ![] Facts₀.bcast_S_S4096 cst_1
  let v17 : FVec Ideal S4096 .f32 := Host.divf v4 v16
  let v18 : FVec Ideal S4096 .f32 := subf v17 v2
  subf v18 v3

def nllFn (v9 : FVec Ideal S2048x2048 .f32) (xb : FVec Ideal S4096x2048 .bf16) (v2 v3 : FVec Ideal S4096 .f32) :
    FVec Ideal S2048 .f32 :=
  let v10 : FVec Ideal S2048x2048 .bf16 := truncf .bf16 v9 Facts₀.bitsLt_bf16_f32
  let v11 : FVec Ideal S2048x2048 .bf16 :=
    extractStridedSlice S2048x2048 ![0, 0] xb Facts₀.slices_S4096x2048_S2048x2048_0_0
  let v12 : FVec Ideal S2048x2048 .f32 := extf .f32 v11 Facts₀.bitsLt_bf16_f32
  let v13 : FVec Ideal S2048x2048 .f32 := extf .f32 v10 Facts₀.bitsLt_bf16_f32
  let v14 : FVec Ideal S2048x2048 .f32 := mulf v12 v13
  let cst : FVec Ideal S_ .f32 := constant S_ .f32 0x00000000#32
  let v15 : FVec Ideal S2048 .f32 := Host.reduceAdd v14 cst Facts₀.reducesTo_S2048x2048_S2048_d1 Facts₀.h_S_
  let v20 : FVec Ideal S2048 .f32 := extractStridedSlice S2048 ![0] v2 Facts₀.slices_S4096_S2048_0
  let v21 : FVec Ideal S2048 .f32 := extractStridedSlice S2048 ![0] v3 Facts₀.slices_S4096_S2048_0
  let v22 : FVec Ideal S2048 .f32 := addf v20 v21
  subf v22 v15

def oddsFn (alp : FVec Ideal S4096 .f32) : FVec Ideal S2048 .f32 :=
  let ch : FVec Ideal S2048 .f32 := extractStridedSlice S2048 ![0] alp Facts₀.slices_S4096_S2048_0
  let rj : FVec Ideal S2048 .f32 := extractStridedSlice S2048 ![2048] alp Facts₀.slices_S4096_S2048_2048
  let df : FVec Ideal S2048 .f32 := subf ch rj
  let lc : FVec Ideal S2048 .f32 := Host.log1p (Host.negf (Host.exp ch))
  let lr : FVec Ideal S2048 .f32 := Host.log1p (Host.negf (Host.exp rj))
  subf df (subf lc lr)

end Pieces

section Stretches
variable (U : Valuation τ sig (Elt Ideal))

theorem s0_v2 : (StableHlo.after (hostOps1 (F := Ideal)) U (Proc.devRef .tc main_v2) : S4096.Idx → EReal)
    = shapeCast S4096 (U (Proc.devRef .tc main_v1_0) : S4096x1.Idx → EReal) Facts₀.shapeCasts_S4096x1_S4096 := by
  simp only [Gen.hostOps1]
  after_results <;> rfl
theorem s0_v3 : (StableHlo.after (hostOps1 (F := Ideal)) U (Proc.devRef .tc main_v3) : S4096.Idx → EReal)
    = shapeCast S4096 (U (Proc.devRef .tc main_v1_1) : S4096x1.Idx → EReal) Facts₀.shapeCasts_S4096x1_S4096 := by
  simp only [Gen.hostOps1]
  after_results <;> rfl
theorem s0_v4 : (StableHlo.after (hostOps1 (F := Ideal)) U (Proc.devRef .tc main_v4) : S4096.Idx → EReal)
    = shapeCast S4096 (U (Proc.devRef .tc main_v1_2) : S4096x1.Idx → EReal) Facts₀.shapeCasts_S4096x1_S4096 := by
  simp only [Gen.hostOps1]
  after_results <;> rfl
theorem s0_v5 : (StableHlo.after (hostOps1 (F := Ideal)) U (Proc.devRef .tc main_v5) : S2048.Idx → BitVec 32)
    = extractStridedSlice S2048 ![0] (U (Proc.devRef .tc main_arg2) : S4096.Idx → BitVec 32) Facts₀.slices_S4096_S2048_0 := by
  simp only [Gen.hostOps1]
  after_results <;> rfl
theorem s0_v7 : (StableHlo.after (hostOps1 (F := Ideal)) U (Proc.devRef .tc main_v7) : S2048.Idx → BitVec 1)
    = KOut.kValid (U (Proc.devRef .tc main_arg2) : S4096.Idx → BitVec 32) := by
  simp only [Gen.hostOps1]
  after_results <;> rfl
theorem s0_c0 : (StableHlo.after (hostOps1 (F := Ideal)) U (Proc.devRef .tc main_c_0) : S_.Idx → BitVec 32)
    = constantI S_ 32 0#32 := by
  simp only [Gen.hostOps1]
  after_results <;> rfl
theorem s0_arg1 : StableHlo.after (hostOps1 (F := Ideal)) U (Proc.devRef .tc main_arg1) = U (Proc.devRef .tc main_arg1) := by
  simp only [Gen.hostOps1]
  after_results
theorem s0_v0 : StableHlo.after (hostOps1 (F := Ideal)) U (Proc.devRef .tc main_v0) = U (Proc.devRef .tc main_v0) := by
  simp only [Gen.hostOps1]
  after_results

theorem s1_v8 : (StableHlo.after (hostOps1_1 (F := Ideal)) U (Proc.devRef .tc main_v8) : S2048.Idx → BitVec 32)
    = select (U (Proc.devRef .tc main_v7) : S2048.Idx → BitVec 1) (U (Proc.devRef .tc main_v5) : S2048.Idx → BitVec 32)
        (broadcastInDim S2048 ![] Facts₀.bcast_S_S2048 (id (U (Proc.devRef .tc main_c_0) : S_.Idx → BitVec 32))) := by
  simp only [Gen.hostOps1_1]
  after_results <;> rfl
theorem s1_arg1 : StableHlo.after (hostOps1_1 (F := Ideal)) U (Proc.devRef .tc main_arg1) = U (Proc.devRef .tc main_arg1) := by
  simp only [Gen.hostOps1_1]
  after_results
theorem s1_v0 : StableHlo.after (hostOps1_1 (F := Ideal)) U (Proc.devRef .tc main_v0) = U (Proc.devRef .tc main_v0) := by
  simp only [Gen.hostOps1_1]
  after_results
theorem s1_v2 : StableHlo.after (hostOps1_1 (F := Ideal)) U (Proc.devRef .tc main_v2) = U (Proc.devRef .tc main_v2) := by
  simp only [Gen.hostOps1_1]
  after_results
theorem s1_v3 : StableHlo.after (hostOps1_1 (F := Ideal)) U (Proc.devRef .tc main_v3) = U (Proc.devRef .tc main_v3) := by
  simp only [Gen.hostOps1_1]
  after_results
theorem s1_v4 : StableHlo.after (hostOps1_1 (F := Ideal)) U (Proc.devRef .tc main_v4) = U (Proc.devRef .tc main_v4) := by
  simp only [Gen.hostOps1_1]
  after_results
theorem s1_v7 : StableHlo.after (hostOps1_1 (F := Ideal)) U (Proc.devRef .tc main_v7) = U (Proc.devRef .tc main_v7) := by
  simp only [Gen.hostOps1_1]
  after_results

set_option maxHeartbeats 4000000 in
theorem s2_v9 : (StableHlo.after (hostOps1_2 (F := Ideal)) U (Proc.devRef .tc main_v9) : S2048x2048.Idx → EReal)
    = takeFn (U (Proc.devRef .tc main_arg1) : S32000x2048.Idx → EReal) (U (Proc.devRef .tc main_v8) : S2048.Idx → BitVec 32) := by
  simp only [Gen.hostOps1_2]
  after_results_simp
  rfl
theorem s2_v0 : StableHlo.after (hostOps1_2 (F := Ideal)) U (Proc.devRef .tc main_v0) = U (Proc.devRef .tc main_v0) := by
  simp only [Gen.hostOps1_2]
  after_results
theorem s2_v2 : StableHlo.after (hostOps1_2 (F := Ideal)) U (Proc.devRef .tc main_v2) = U (Proc.devRef .tc main_v2) := by
  simp only [Gen.hostOps1_2]
  after_results
theorem s2_v3 : StableHlo.after (hostOps1_2 (F := Ideal)) U (Proc.devRef .tc main_v3) = U (Proc.devRef .tc main_v3) := by
  simp only [Gen.hostOps1_2]
  after_results
theorem s2_v4 : StableHlo.after (hostOps1_2 (F := Ideal)) U (Proc.devRef .tc main_v4) = U (Proc.devRef .tc main_v4) := by
  simp only [Gen.hostOps1_2]
  after_results
theorem s2_v7 : StableHlo.after (hostOps1_2 (F := Ideal)) U (Proc.devRef .tc main_v7) = U (Proc.devRef .tc main_v7) := by
  simp only [Gen.hostOps1_2]
  after_results

theorem s3_v19 : (StableHlo.after (hostOps1_3 (F := Ideal)) U (Proc.devRef .tc main_v19) : S4096.Idx → EReal)
    = alpFn (U (Proc.devRef .tc main_v2) : S4096.Idx → EReal) (U (Proc.devRef .tc main_v3) : S4096.Idx → EReal) (U (Proc.devRef .tc main_v4) : S4096.Idx → EReal) := by
  simp only [Gen.hostOps1_3]
  after_results <;> rfl

set_option maxHeartbeats 4000000 in
theorem s3_v23 : (StableHlo.after (hostOps1_3 (F := Ideal)) U (Proc.devRef .tc main_v23) : S2048.Idx → EReal)
    = nllFn (U (Proc.devRef .tc main_v9) : S2048x2048.Idx → EReal) (U (Proc.devRef .tc main_v0) : S4096x2048.Idx → EReal)
        (U (Proc.devRef .tc main_v2) : S4096.Idx → EReal) (U (Proc.devRef .tc main_v3) : S4096.Idx → EReal) := by
  simp only [Gen.hostOps1_3]
  after_results_simp
  rfl
theorem s3_cst2 : (StableHlo.after (hostOps1_3 (F := Ideal)) U (Proc.devRef .tc main_cst_2) : S_.Idx → EReal)
    = constant (F := Ideal) S_ .f32 0x00000000#32 := by
  simp only [Gen.hostOps1_3]
  after_results <;> rfl
theorem s3_v7 : StableHlo.after (hostOps1_3 (F := Ideal)) U (Proc.devRef .tc main_v7) = U (Proc.devRef .tc main_v7) := by
  simp only [Gen.hostOps1_3]
  after_results

theorem s4_v24 : (StableHlo.after (hostOps1_4 (F := Ideal)) U (Proc.devRef .tc main_v24) : S2048.Idx → EReal)
    = select (U (Proc.devRef .tc main_v7) : S2048.Idx → BitVec 1) (U (Proc.devRef .tc main_v23) : S2048.Idx → EReal)
        (broadcastInDim S2048 ![] Facts₀.bcast_S_S2048 (id (U (Proc.devRef .tc main_cst_2) : S_.Idx → EReal))) := by
  simp only [Gen.hostOps1_4]
  after_results <;> rfl
theorem s4_v7 : StableHlo.after (hostOps1_4 (F := Ideal)) U (Proc.devRef .tc main_v7) = U (Proc.devRef .tc main_v7) := by
  simp only [Gen.hostOps1_4]
  after_results
theorem s4_v19 : StableHlo.after (hostOps1_4 (F := Ideal)) U (Proc.devRef .tc main_v19) = U (Proc.devRef .tc main_v19) := by
  simp only [Gen.hostOps1_4]
  after_results

theorem s5_v30 : (StableHlo.after (hostOps1_5 (F := Ideal)) U (Proc.devRef .tc main_v30) : S_.Idx → EReal)
    = Cert.Spec.ceTerm (U (Proc.devRef .tc main_v24) : S2048.Idx → EReal) (U (Proc.devRef .tc main_v7) : S2048.Idx → BitVec 1) := by
  simp only [Gen.hostOps1_5]
  after_results <;> rfl

set_option maxHeartbeats 4000000 in
theorem s5_v41 : (StableHlo.after (hostOps1_5 (F := Ideal)) U (Proc.devRef .tc main_v41) : S2048.Idx → EReal)
    = oddsFn (U (Proc.devRef .tc main_v19) : S4096.Idx → EReal) := by
  simp only [Gen.hostOps1_5]
  after_results_simp
  rfl

set_option maxHeartbeats 4000000 in
theorem s6_v42 : (StableHlo.after (hostOps1_6 (F := Ideal)) U (Proc.devRef .tc main_v42) : S2048.Idx → EReal)
    = Cert.Spec.logSigmoid (U (Proc.devRef .tc main_v41) : S2048.Idx → EReal) := by
  simp only [Gen.hostOps1_6]
  after_results_simp
  rfl
theorem s6_v30 : StableHlo.after (hostOps1_6 (F := Ideal)) U (Proc.devRef .tc main_v30) = U (Proc.devRef .tc main_v30) := by
  simp only [Gen.hostOps1_6]
  after_results

theorem s7_v47 : (StableHlo.after (hostOps1_7 (F := Ideal)) U (Proc.devRef .tc main_v47) : S_.Idx → EReal)
    = subf (U (Proc.devRef .tc main_v30) : S_.Idx → EReal)
        (Host.divf (Host.reduceAdd (mulf (broadcastInDim S2048 ![] Facts₀.bcast_S_S2048 (constant (F := Ideal) S_ .f32 0x3DCCCCCD#32))
            (U (Proc.devRef .tc main_v42) : S2048.Idx → EReal)) (constant (F := Ideal) S_ .f32 0x00000000#32) Facts₀.reducesTo_S2048_S_d0 Facts₀.h_S_)
          (constant (F := Ideal) S_ .f32 0x45000000#32)) := by
  simp only [Gen.hostOps1_7]
  after_results <;> rfl

end Stretches

theorem tail_fn (U : Valuation τ sig (Elt Ideal)) :
    (StableHlo.after (List.flatten (tailOps (F := Ideal))) U (Proc.devRef .tc main_v47) : S_.Idx → EReal)
      = KOut.out (U (Proc.devRef .tc main_v1_0) : S4096x1.Idx → EReal) (U (Proc.devRef .tc main_v1_1) : S4096x1.Idx → EReal)
          (U (Proc.devRef .tc main_v1_2) : S4096x1.Idx → EReal) (U (Proc.devRef .tc main_v0) : S4096x2048.Idx → EReal)
          (U (Proc.devRef .tc main_arg1) : S32000x2048.Idx → EReal) (U (Proc.devRef .tc main_arg2) : S4096.Idx → BitVec 32) := by
  simp only [tailOps, List.flatten_cons, List.flatten_nil, List.append_nil, StableHlo.after_append]
  rw [s7_v47, s6_v42, s6_v30, s5_v30, s5_v41, s4_v24, s4_v7, s4_v19, s3_v23, s3_cst2, s3_v7, s3_v19,
    s2_v9, s2_v0, s2_v2, s2_v3, s2_v4, s2_v7, s1_v8, s1_arg1, s1_v0, s1_v2, s1_v3, s1_v4, s1_v7,
    s0_v2, s0_v3, s0_v4, s0_v5, s0_v7, s0_c0, s0_arg1, s0_v0]
  dsimp only [KOut.out, KOut.kAlp, KOut.kNll, Cert.Spec.tail, Cert.Spec.orTerm, takeFn, alpFn, nllFn, oddsFn]

variable (m : (ℓ : Loc nD τ sig) → Buf (Elt Ideal) ℓ) (ρ : Dev nD → PrngReg)

theorem entry_cast (c : Dev nD) :
    (V m c main_v0 : S4096x2048.Idx → EReal) = truncf (F := Ideal) .bf16 (m ((c : Thread nD τ).loc main_arg0)) bitsLt_bf16_f32 := by
  dsimp only [V, V0]
  simp only [Gen.hostOps0, List.flatten_cons, List.flatten_nil, List.append_nil, List.cons_append, List.nil_append]
  after_results

theorem tail_val (c : Dev nD) :
    (Pipeline.afterTail₀ cfgs (dats (F := Ideal) m) 0 (V0 m) tailOps c main_v47 : S_.Idx → EReal)
      = KOut.out ((dats (F := Ideal) m 0 c).arrAt 2 cfg0.N) ((dats (F := Ideal) m 0 c).arrAt 3 cfg0.N) ((dats (F := Ideal) m 0 c).arrAt 4 cfg0.N)
          ((dats (F := Ideal) m 0 c).arrAt 0 cfg0.N) ((dats (F := Ideal) m 0 c).arrAt 1 cfg0.N) (V0 m c (Proc.devRef .tc main_arg2)) := by
  unfold Pipeline.afterTail₀
  rw [tail_fn]
  rw [Pipeline.withArrays_arr spec0 launch0.win.arr_inj c _ _ 0, Pipeline.withArrays_arr spec0 launch0.win.arr_inj c _ _ 1,
    Pipeline.withArrays_arr spec0 launch0.win.arr_inj c _ _ 2, Pipeline.withArrays_arr spec0 launch0.win.arr_inj c _ _ 3,
    Pipeline.withArrays_arr spec0 launch0.win.arr_inj c _ _ 4,
    Pipeline.withArrays_of_ne _ c (V0 m c) _ main_arg2 (by exact (by decide : ∀ w, Pipeline.arrRef spec0 w ≠ main_arg2))]

end Cert.KernelIdeal.HandVal

end
-- ==== Proof.OnlineSoftmax.lean ====
import Idealize.ShloMosaic.PureOps
import Idealize.ShloMosaic.PureOps.Ideal.Laws
import Idealize.ShloMosaic.Lib.ValueIdx
import proofs.«424783_j8701603741901_3_alg».proof.Proof.Spec
import Mathlib.Data.EReal.Operations
import Mathlib.Data.Finset.Lattice.Fold
import Mathlib.Logic.Equiv.Fin.Basic
import Mathlib.Algebra.BigOperators.Group.Finset.Basic
import Mathlib.Analysis.Complex.Exponential

noncomputable section

namespace Cert.Online

open Idealize.ShloMosaic Idealize.ShloMosaic.ValueIdx

def step (t : Fin 640 → ℝ) (p : EReal × EReal × EReal) : EReal × EReal × EReal :=
  let tm : EReal := (Finset.univ : Finset (Fin 640)).fold max ⊥ (fun j => ((t j : ℝ) : EReal))
  let m' : EReal := max p.1 tm
  (m', Ideal.exp (p.1 - m') * p.2.1 + ∑ j : Fin 640, Ideal.exp (((t j : ℝ) : EReal) - m'), p.2.2 + ∑ j : Fin 640, ((t j : ℝ) : EReal))

def run (a : ℕ → Fin 640 → ℝ) : ℕ → EReal × EReal × EReal
  | 0 => step (a 0) (⊥, 0, 0)
  | k + 1 => step (a (k + 1)) (run a k)

def tileOf (x : FVec Ideal Cert.Spec.SX .f32) (W : FVec Ideal Cert.Spec.SW .f32) (b : Fin 4096) (k : ℕ) (j : Fin 640) : ℝ :=
  if h : 640 * k + j.val < 32000 then Cert.Spec.logit x W b ⟨640 * k + j.val, h⟩ else 0

theorem coe_sum {ι : Type*} (s : Finset ι) (f : ι → ℝ) :
    ∑ j ∈ s, ((f j : ℝ) : EReal) = ((∑ j ∈ s, f j : ℝ) : EReal) := by
  classical
  induction s using Finset.induction_on with
  | empty => simp
  | insert i s hi ih => rw [Finset.sum_insert hi, Finset.sum_insert hi, ih, EReal.coe_add]

theorem coe_max (x y : ℝ) : ((max x y : ℝ) : EReal) = max (x : EReal) (y : EReal) :=
  EReal.coe_strictMono.monotone.map_max

def tileMax (t : Fin 640 → ℝ) : ℝ :=
  (Finset.univ : Finset (Fin 640)).sup' Finset.univ_nonempty t

theorem fold_eq (t : Fin 640 → ℝ) :
    (Finset.univ : Finset (Fin 640)).fold max ⊥ (fun j => ((t j : ℝ) : EReal)) = ((tileMax t : ℝ) : EReal) := by
  unfold tileMax
  rw [Finset.comp_sup'_eq_sup'_comp Finset.univ_nonempty (fun r : ℝ => (r : EReal)) (fun x y => coe_max x y),
    Finset.sup'_eq_sup]
  rfl

theorem step_first (t : Fin 640 → ℝ) :
    step t (⊥, 0, 0)
      = (((tileMax t : ℝ) : EReal), ((∑ j : Fin 640, Real.exp (t j - tileMax t) : ℝ) : EReal),
          ((∑ j : Fin 640, t j : ℝ) : EReal)) := by
  unfold step
  simp only [fold_eq, bot_le, max_eq_right, mul_zero, zero_add, coe_sum, ← EReal.coe_sub, Ideal.exp_coe]

theorem step_real (t : Fin 640 → ℝ) (m l s : ℝ) :
    step t ((m : EReal), (l : EReal), (s : EReal))
      = (((max m (tileMax t) : ℝ) : EReal),
          ((Real.exp (m - max m (tileMax t)) * l + ∑ j : Fin 640, Real.exp (t j - max m (tileMax t)) : ℝ) : EReal),
          ((s + ∑ j : Fin 640, t j : ℝ) : EReal)) := by
  unfold step
  simp only [fold_eq, ← coe_max, ← EReal.coe_sub, Ideal.exp_coe, coe_sum, ← EReal.coe_mul, ← EReal.coe_add]

def Mk (a : ℕ → Fin 640 → ℝ) (k : ℕ) : ℝ :=
  (Finset.range (k + 1)).sup' Finset.nonempty_range_add_one (fun i => tileMax (a i))

def Lk (a : ℕ → Fin 640 → ℝ) (k : ℕ) : ℝ :=
  ∑ i ∈ Finset.range (k + 1), ∑ j : Fin 640, Real.exp (a i j - Mk a k)

def Sk (a : ℕ → Fin 640 → ℝ) (k : ℕ) : ℝ :=
  ∑ i ∈ Finset.range (k + 1), ∑ j : Fin 640, a i j

theorem Mk_zero (a : ℕ → Fin 640 → ℝ) : Mk a 0 = tileMax (a 0) := by
  unfold Mk
  apply le_antisymm
  · rw [Finset.sup'_le_iff]
    intro i hi
    have : i = 0 := by simpa using hi
    rw [this]
  · exact Finset.le_sup' (fun i => tileMax (a i)) (by simp)

theorem Mk_succ (a : ℕ → Fin 640 → ℝ) (k : ℕ) : Mk a (k + 1) = max (Mk a k) (tileMax (a (k + 1))) := by
  unfold Mk
  apply le_antisymm
  · rw [Finset.sup'_le_iff]
    intro i hi
    rw [Finset.mem_range] at hi
    rcases Nat.lt_succ_iff_lt_or_eq.mp hi with h | h
    · exact le_trans (Finset.le_sup' (fun i => tileMax (a i)) (Finset.mem_range.mpr h)) (le_max_left _ _)
    · rw [h]; exact le_max_right _ _
  · apply max_le
    · rw [Finset.sup'_le_iff]
      intro i hi
      rw [Finset.mem_range] at hi
      exact Finset.le_sup' (fun i => tileMax (a i)) (Finset.mem_range.mpr (by omega))
    · exact Finset.le_sup' (fun i => tileMax (a i)) (Finset.mem_range.mpr (by omega))

theorem rescale (a : ℕ → Fin 640 → ℝ) (k : ℕ) (M M' : ℝ) :
    Real.exp (M - M') * ∑ i ∈ Finset.range (k + 1), ∑ j : Fin 640, Real.exp (a i j - M)
      = ∑ i ∈ Finset.range (k + 1), ∑ j : Fin 640, Real.exp (a i j - M') := by
  rw [Finset.mul_sum]
  refine Finset.sum_congr rfl (fun i _ => ?_)
  rw [Finset.mul_sum]
  refine Finset.sum_congr rfl (fun j _ => ?_)
  rw [← Real.exp_add]
  congr 1
  ring

theorem run_eq (a : ℕ → Fin 640 → ℝ) (k : ℕ) :
    run a k = (((Mk a k : ℝ) : EReal), ((Lk a k : ℝ) : EReal), ((Sk a k : ℝ) : EReal)) := by
  induction k with
  | zero =>
    show step (a 0) (⊥, 0, 0) = _
    rw [step_first]
    simp only [Lk, Sk, Mk_zero, Nat.zero_add, Finset.range_one, Finset.sum_singleton]
  | succ k ih =>
    show step (a (k + 1)) (run a k) = _
    rw [ih, step_real, ← Mk_succ]
    have hL : Real.exp (Mk a k - Mk a (k + 1)) * Lk a k
        + ∑ j : Fin 640, Real.exp (a (k + 1) j - Mk a (k + 1)) = Lk a (k + 1) := by
      unfold Lk
      rw [rescale a k (Mk a k) (Mk a (k + 1)), ← Finset.sum_range_succ (fun i => ∑ j : Fin 640, Real.exp (a i j - Mk a (k + 1)))]
    have hS : Sk a k + ∑ j : Fin 640, a (k + 1) j = Sk a (k + 1) := by
      unfold Sk
      rw [← Finset.sum_range_succ (fun i => ∑ j : Fin 640, a i j)]
    rw [hL, hS]

theorem reindex (f : Fin 32000 → ℝ) :
    ∑ i ∈ Finset.range 50, ∑ j : Fin 640, (if h : 640 * i + j.val < 32000 then f ⟨640 * i + j.val, h⟩ else 0)
      = ∑ v : Fin 32000, f v := by
  rw [Finset.sum_range (fun i => ∑ j : Fin 640, (if h : 640 * i + j.val < 32000 then f ⟨640 * i + j.val, h⟩ else 0))]
  rw [← Fintype.sum_prod_type' (f := fun (i : Fin 50) (j : Fin 640) =>
      (if h : 640 * i.val + j.val < 32000 then f ⟨640 * i.val + j.val, h⟩ else 0))]
  refine Fintype.sum_equiv (finProdFinEquiv (m := 50) (n := 640)) _ _ ?_
  rintro ⟨i, j⟩
  have h : 640 * i.val + j.val < 32000 := by omega
  simp only [dif_pos h]
  congr 1
  apply Fin.ext
  simp only [finProdFinEquiv, Equiv.coe_fn_mk]
  omega

theorem tileOf_lt (x : FVec Ideal Cert.Spec.SX .f32) (W : FVec Ideal Cert.Spec.SW .f32) (b : Fin 4096)
    (i : ℕ) (hi : i < 50) (j : Fin 640) :
    tileOf x W b i j = Cert.Spec.logit x W b ⟨640 * i + j.val, by omega⟩ := by
  unfold tileOf
  rw [dif_pos]

theorem Mk_last (x : FVec Ideal Cert.Spec.SX .f32) (W : FVec Ideal Cert.Spec.SW .f32) (b : Fin 4096) :
    Mk (tileOf x W b) 49 = Cert.Spec.rowMax x W b := by
  unfold Mk tileMax Cert.Spec.rowMax
  apply le_antisymm
  · refine Finset.sup'_le _ _ (fun i hi => ?_)
    rw [Finset.mem_range] at hi
    refine Finset.sup'_le _ _ (fun j _ => ?_)
    rw [tileOf_lt x W b i (by omega) j]
    exact Finset.le_sup' (Cert.Spec.logit x W b) (Finset.mem_univ _)
  · refine Finset.sup'_le _ _ (fun v _ => ?_)
    have hv := v.isLt
    have h1 : v.val / 640 < 50 := by omega
    have h2 : v.val % 640 < 640 := Nat.mod_lt _ (by norm_num)
    have e : Cert.Spec.logit x W b v = tileOf x W b (v.val / 640) ⟨v.val % 640, h2⟩ := by
      rw [tileOf_lt x W b _ h1]
      congr 1
      apply Fin.ext
      simp only
      omega
    rw [e]
    exact le_trans (Finset.le_sup' (tileOf x W b (v.val / 640)) (Finset.mem_univ _))
      (Finset.le_sup' (fun i => Finset.univ.sup' Finset.univ_nonempty (tileOf x W b i)) (Finset.mem_range.mpr h1))

theorem Lk_last (x : FVec Ideal Cert.Spec.SX .f32) (W : FVec Ideal Cert.Spec.SW .f32) (b : Fin 4096) :
    Lk (tileOf x W b) 49 = Cert.Spec.sumExp x W b := by
  unfold Lk Cert.Spec.sumExp
  rw [Mk_last]
  refine Eq.trans ?_ (reindex (fun v => Real.exp (Cert.Spec.logit x W b v - Cert.Spec.rowMax x W b)))
  refine Finset.sum_congr rfl (fun i hi => ?_)
  rw [Finset.mem_range] at hi
  refine Finset.sum_congr rfl (fun j _ => ?_)
  have h : 640 * i + j.val < 32000 := by omega
  rw [dif_pos h, tileOf_lt x W b i (by omega) j]

theorem Sk_last (x : FVec Ideal Cert.Spec.SX .f32) (W : FVec Ideal Cert.Spec.SW .f32) (b : Fin 4096) :
    Sk (tileOf x W b) 49 = Cert.Spec.rowSum x W b := by
  unfold Sk Cert.Spec.rowSum
  refine Eq.trans ?_ (reindex (fun v => Cert.Spec.logit x W b v))
  refine Finset.sum_congr rfl (fun i hi => ?_)
  rw [Finset.mem_range] at hi
  refine Finset.sum_congr rfl (fun j _ => ?_)
  have h : 640 * i + j.val < 32000 := by omega
  rw [dif_pos h, tileOf_lt x W b i (by omega) j]

theorem run_last (x : FVec Ideal Cert.Spec.SX .f32) (W : FVec Ideal Cert.Spec.SW .f32) (b : Fin 4096) :
    run (tileOf x W b) 49 = (((Cert.Spec.rowMax x W b : ℝ) : EReal), ((Cert.Spec.sumExp x W b : ℝ) : EReal), ((Cert.Spec.rowSum x W b : ℝ) : EReal)) := by
  rw [run_eq, Mk_last, Lk_last, Sk_last]

theorem sumExp_pos (x : FVec Ideal Cert.Spec.SX .f32) (W : FVec Ideal Cert.Spec.SW .f32) (b : Fin 4096) :
    0 < Cert.Spec.sumExp x W b := by
  unfold Cert.Spec.sumExp
  exact Finset.sum_pos (fun _ _ => Real.exp_pos _) Finset.univ_nonempty

end Cert.Online

end
-- ==== Proof.KOutValue.lean ====
import proofs.«424783_j8701603741901_3_alg».proof.Proof.KOut
import proofs.«424783_j8701603741901_3_alg».proof.Proof.Spec
import proofs.«424783_j8701603741901_3_alg».proof.Proof.LibGatherRows
import proofs.«424783_j8701603741901_3_alg».proof.Proof.OnlineSoftmax
import Idealize.ShloMosaic.Lib.ValueLayout
import Idealize.ShloMosaic.Lib.IdealHost
import Idealize.ShloMosaic.PureOps.Ideal.Laws

noncomputable section

namespace Cert.KernelIdeal.KOutValue

open Idealize.ShloMosaic Idealize.ShloMosaic.ValueIdx Idealize.ShloMosaic.RowGather
open Cert.KernelIdeal Cert.KernelIdeal.Facts₀ Cert.KernelIdeal.KOut

section Layout
variable {α : Type}

theorem col_apply (M : S4096x1.Idx → α) (b : Fin 4096) :
    shapeCast S4096 M shapeCasts_S4096x1_S4096 (ix1 b) = M (ix2 b (0 : Fin 1)) :=
  shapeCast_apply M _ _ _ (by
    rw [Shape.rowMajor_val_two, Shape.rowMajor_val_one]
    show b.val * 1 + 0 = b.val
    omega)

theorem slice0_apply (v : S4096.Idx → α) (b : Fin 2048) :
    extractStridedSlice S2048 ![0] v slices_S4096_S2048_0 (ix1 b) = v (ix1 (Cert.Spec.up b)) :=
  extractStridedSlice_apply _ _ _ _ _ (fun a => by
    match a with
    | ⟨0, _⟩ => exact (Nat.zero_add _).symm)

theorem xslice_apply (v : S4096x2048.Idx → α) (b : Fin 2048) (k : Fin 2048) :
    extractStridedSlice S2048x2048 ![0, 0] v slices_S4096x2048_S2048x2048_0_0 (ix2 b k)
      = v (ix2 (Cert.Spec.up b) k) :=
  slice2_axis0_apply 0 v _ b k _ (Nat.zero_add _).symm

theorem splat_apply (T : Shape) (h : S_.BroadcastsInDim T ![]) (c : S_.Idx → α) (j : T.Idx) :
    broadcastInDim T ![] h c j = c ix0 := broadcastInDim_scalar_apply h c j

theorem col_bcast_apply (v : S2048.Idx → α) (b : Fin 2048) (u : Fin 1) :
    broadcastInDim S2048x1 ![0] bcast_S2048_S2048x1_0 v (ix2 b u) = v (ix1 b) :=
  broadcastInDim_apply _ _ _ _ _ (fun a => by
    match a with
    | ⟨0, _⟩ => rfl)

theorem rows_bcast_apply (v : S2048.Idx → α) (b : Fin 2048) (k : Fin 2048) :
    broadcastInDim S2048x2048 ![0] bcast_S2048_S2048x2048_0 v (ix2 b k) = v (ix1 b) :=
  broadcastInDim_apply _ _ _ _ _ (fun a => by
    match a with
    | ⟨0, _⟩ => rfl)

theorem one_bcast_apply (c : S1.Idx → α) (b : Fin 2048) (u : Fin 1) :
    broadcastInDim S2048x1 ![0, 1] bcast_S1x1_S2048x1_0_1 (broadcastInDim S1x1 ![1] bcast_S1_S1x1_1 c) (ix2 b u)
      = c (ix1 (0 : Fin 1)) := by
  refine (broadcastInDim_apply _ _ _ _ (ix2 (0 : Fin 1) (0 : Fin 1)) (fun a => by
    match a with
    | ⟨0, _⟩ => rfl
    | ⟨1, _⟩ => rfl)).trans ?_
  exact broadcastInDim_apply _ _ _ _ _ (fun a => by
    match a with
    | ⟨0, _⟩ => rfl)

end Layout

theorem fold_fin1 {α : Type} (f : α → α → α) [Std.Commutative f] [Std.Associative f] (init : α) (g : Fin 1 → α) :
    (Finset.univ : Finset (Fin 1)).fold f init g = f (g 0) init := by
  rw [Finset.univ_unique, Finset.fold_singleton]
  rfl

theorem and_reduce_apply (m : IVec S2048x1 1) (b : Fin 2048) :
    Host.reduce IntOp.andi m (constantI S_ 1 1#1) reducesTo_S2048x1_S2048_d1 h_S_ (ix1 b)
      = m (ix2 b (0 : Fin 1)) := by
  have hR : S2048x1.Reduces [1] S2048 := by decide
  rw [Host.reduce_eq_fold_single IntOp.andi m _ reducesTo_S2048x1_S2048_d1 hR h_S_ (ix1 b)]
  have hl : hR.lift (ix1 b) (0 : Fin 1) = ix2 b (0 : Fin 1) := by
    funext c
    refine Fin.ext ?_
    match c with
    | ⟨0, _⟩ => rfl
    | ⟨1, _⟩ => rfl
  refine (fold_fin1 IntOp.andi 1#1 (fun k : Fin 1 => m (hR.lift (ix1 b) k))).trans ?_
  show IntOp.andi (m (hR.lift (ix1 b) (0 : Fin 1))) 1#1 = _
  rw [hl]
  rcases BitVec.eq_zero_or_eq_one (m (ix2 b (0 : Fin 1))) with h | h <;> rw [h] <;> rfl

theorem sum_reduce_apply (p : FVec Ideal S2048x2048 .f32) (b : Fin 2048) :
    Host.reduceAdd p (constant S_ .f32 0x00000000#32) reducesTo_S2048x2048_S2048_d1 h_S_ (ix1 b)
      = ∑ k : Fin 2048, p (ix2 b k) := by
  have hR : S2048x2048.Reduces [1] S2048 := by decide
  rw [hostReduceAdd_apply, Ideal.hostReduceAdd_single _ hR, constant_apply, Ideal.ofBits_zero_f32, zero_add]
  show ∑ k : Fin 2048, p (hR.lift (ix1 b) k) = _
  refine Finset.sum_congr rfl (fun k _ => congrArg p ?_)
  funext c
  refine Fin.ext ?_
  match c with
  | ⟨0, _⟩ => rfl
  | ⟨1, _⟩ => rfl

theorem gather_apply (W : FVec Ideal S32000x2048 .f32) (idx : IVec S2048x1 32) (b k : Fin 2048) :
    Host.gather gather_S32000x2048_S2048x1_S2048x2048_1_0_n_n_0_1_12048 W idx (ix2 b k)
      = W (ix2 (clampRow 32000 (by decide) (idx (ix2 b (0 : Fin 1)))) k) :=
  gather_rows_apply (N := 32000) (C := 2048) (E := 2048) (by decide)
    gather_S32000x2048_S2048x1_S2048x2048_1_0_n_n_0_1_12048_wf W idx b k

theorem ofBits_32000 : Ideal.ofBits .f32 0x46FA0000#32 = ((32000 : ℝ) : EReal) := by
  simp [Ideal.ofBits, Ideal.ieee, -EReal.coe_mul]
  norm_num

theorem label_apply (y : IVec S4096 32) (b : Fin 2048) :
    extractStridedSlice S2048 ![0] y slices_S4096_S2048_0 (ix1 b) = Cert.Spec.label y b :=
  slice0_apply y b

theorem kValid_apply (y : IVec S4096 32) (b : Fin 2048) : kValid y (ix1 b) = Cert.Spec.validW y b := by
  show IntOp.cmpi .ne (extractStridedSlice S2048 ![0] y slices_S4096_S2048_0 (ix1 b))
    (broadcastInDim S2048 ![] bcast_S_S2048 (constantI S_ 32 4294967196#32) (ix1 b)) = _
  rw [label_apply, splat_apply]
  rfl

theorem kValid_eq (y : IVec S4096 32) : kValid y = Cert.Spec.validVec y := by
  funext i
  obtain ⟨b, rfl⟩ : ∃ b : Fin 2048, i = ix1 b := ⟨i 0, eq_ix1 i⟩
  exact kValid_apply y b

theorem kAlp_eq (x : FVec Ideal S4096x2048 .f32) (W : FVec Ideal S32000x2048 .f32)
    (Mo Lo So : FVec Ideal S4096x1 .f32)
    (hM : ∀ b : Fin 4096, Mo (ix2 b (0 : Fin 1)) = ((Cert.Spec.rowMax x W b : ℝ) : EReal))
    (hL : ∀ b : Fin 4096, Lo (ix2 b (0 : Fin 1)) = ((Real.log (Cert.Spec.sumExp x W b) : ℝ) : EReal))
    (hS : ∀ b : Fin 4096, So (ix2 b (0 : Fin 1)) = ((Cert.Spec.rowSum x W b : ℝ) : EReal)) :
    kAlp Mo Lo So = Cert.Spec.alpSpec x W := by
  funext i
  obtain ⟨b, rfl⟩ : ∃ b : Fin 4096, i = ix1 b := ⟨i 0, eq_ix1 i⟩
  show (Ideal.div (shapeCast S4096 So shapeCasts_S4096x1_S4096 (ix1 b))
        (broadcastInDim S4096 ![] bcast_S_S4096 (constant (F := Ideal) S_ .f32 0x46FA0000#32) (ix1 b))
      - shapeCast S4096 Mo shapeCasts_S4096x1_S4096 (ix1 b))
      - shapeCast S4096 Lo shapeCasts_S4096x1_S4096 (ix1 b) = ((Cert.Spec.alpR x W b : ℝ) : EReal)
  rw [col_apply, col_apply, col_apply, splat_apply, constant_apply, ofBits_32000, hM, hL, hS,
    Ideal.div_coe (by norm_num), ← EReal.coe_mul, ← EReal.coe_sub, ← EReal.coe_sub]
  unfold Cert.Spec.alpR
  congr 1
  ring

def safeVec (y : IVec S4096 32) : IVec S2048 32 :=
  select (kValid y) (extractStridedSlice S2048 ![0] y slices_S4096_S2048_0)
    (broadcastInDim S2048 ![] bcast_S_S2048 (id (constantI S_ 32 0#32)))

def wrapVec (v : IVec S2048 32) : IVec S2048 32 :=
  select (cmpi .slt v (broadcastInDim S2048 ![] bcast_S_S2048 (constantI S_ 32 0#32)))
    (addi v (broadcastInDim S2048 ![] bcast_S_S2048 (constantI S_ 32 32000#32))) v

def idxCol (v : IVec S2048 32) : IVec S2048x1 32 := broadcastInDim S2048x1 ![0] bcast_S2048_S2048x1_0 v

def inRange (t : IVec S2048x1 32) : IVec S2048 1 :=
  Host.reduce IntOp.andi
    (andi (cmpi .sge t (broadcastInDim S2048x1 ![] bcast_S_S2048x1 (constantI S_ 32 0#32)))
      (cmpi .sle t (broadcastInDim S2048x1 ![0, 1] bcast_S1x1_S2048x1_0_1
        (broadcastInDim S1x1 ![1] bcast_S1_S1x1_1 (constantI S1 32 31999#32)))))
    (constantI S_ 1 1#1) reducesTo_S2048x1_S2048_d1 h_S_

def takeRows (W : FVec Ideal S32000x2048 .f32) (t : IVec S2048x1 32) : FVec Ideal S2048x2048 .f32 :=
  select (broadcastInDim S2048x2048 ![0] bcast_S2048_S2048x2048_0 (inRange t))
    (Host.gather gather_S32000x2048_S2048x1_S2048x2048_1_0_n_n_0_1_12048 W t)
    (broadcastInDim S2048x2048 ![] bcast_S_S2048x2048 (constant S_ .f32 0x7FC00000#32))

def dots (xb : FVec Ideal S4096x2048 .bf16) (rows : FVec Ideal S2048x2048 .f32) : FVec Ideal S2048 .f32 :=
  Host.reduceAdd
    (mulf (extf .f32 (extractStridedSlice S2048x2048 ![0, 0] xb slices_S4096x2048_S2048x2048_0_0) bitsLt_bf16_f32)
      (extf .f32 (truncf .bf16 rows bitsLt_bf16_f32) bitsLt_bf16_f32))
    (constant S_ .f32 0x00000000#32) reducesTo_S2048x2048_S2048_d1 h_S_

theorem kNll_unfold (Mo Lo : FVec Ideal S4096x1 .f32) (xb : FVec Ideal S4096x2048 .bf16)
    (W : FVec Ideal S32000x2048 .f32) (y : IVec S4096 32) :
    kNll Mo Lo xb W y
      = select (kValid y)
          (subf
            (addf (extractStridedSlice S2048 ![0] (shapeCast S4096 Mo shapeCasts_S4096x1_S4096) slices_S4096_S2048_0)
              (extractStridedSlice S2048 ![0] (shapeCast S4096 Lo shapeCasts_S4096x1_S4096) slices_S4096_S2048_0))
            (dots xb (takeRows W (idxCol (wrapVec (safeVec y))))))
          (broadcastInDim S2048 ![] bcast_S_S2048 (id (constant S_ .f32 0x00000000#32))) := rfl

theorem safeVec_apply (y : IVec S4096 32) (b : Fin 2048) : safeVec y (ix1 b) = Cert.Spec.safeW y b := by
  unfold safeVec
  rw [select_apply, kValid_apply, label_apply, splat_apply]
  rfl

theorem wrapVec_apply (v : IVec S2048 32) (b : Fin 2048) : wrapVec v (ix1 b) = Cert.Spec.wrapW (v (ix1 b)) := by
  unfold wrapVec
  rw [select_apply]
  show Scalar.select (IntOp.cmpi .slt (v (ix1 b)) (broadcastInDim S2048 ![] bcast_S_S2048 (constantI S_ 32 0#32) (ix1 b)))
    (IntOp.addi (v (ix1 b)) (broadcastInDim S2048 ![] bcast_S_S2048 (constantI S_ 32 32000#32) (ix1 b))) (v (ix1 b)) = _
  rw [splat_apply, splat_apply]
  rfl

theorem inRange_apply (t : IVec S2048x1 32) (b : Fin 2048) :
    inRange t (ix1 b) = IntOp.andi (IntOp.cmpi .sge (t (ix2 b (0 : Fin 1))) 0#32)
      (IntOp.cmpi .sle (t (ix2 b (0 : Fin 1))) 31999#32) := by
  unfold inRange
  rw [and_reduce_apply]
  show IntOp.andi
    (IntOp.cmpi .sge (t (ix2 b (0 : Fin 1)))
      (broadcastInDim S2048x1 ![] bcast_S_S2048x1 (constantI S_ 32 0#32) (ix2 b (0 : Fin 1))))
    (IntOp.cmpi .sle (t (ix2 b (0 : Fin 1)))
      (broadcastInDim S2048x1 ![0, 1] bcast_S1x1_S2048x1_0_1
        (broadcastInDim S1x1 ![1] bcast_S1_S1x1_1 (constantI S1 32 31999#32)) (ix2 b (0 : Fin 1)))) = _
  rw [splat_apply, one_bcast_apply]
  rfl

theorem takeRows_apply (W : FVec Ideal S32000x2048 .f32) (t : IVec S2048x1 32) (b k : Fin 2048)
    (h : inRange t (ix1 b) = 1#1) :
    takeRows W t (ix2 b k) = W (ix2 (clampRow 32000 (by decide) (t (ix2 b (0 : Fin 1)))) k) := by
  unfold takeRows
  rw [select_apply, rows_bcast_apply, h, select_one, gather_apply]

theorem dots_apply (x : FVec Ideal S4096x2048 .f32) (rows : FVec Ideal S2048x2048 .f32) (b : Fin 2048) :
    dots (truncf .bf16 x bitsLt_bf16_f32) rows (ix1 b)
      = ∑ k : Fin 2048, x (ix2 (Cert.Spec.up b) k) * rows (ix2 b k) := by
  unfold dots
  rw [sum_reduce_apply]
  refine Finset.sum_congr rfl (fun k _ => ?_)
  rw [mulf_apply, extf_apply, extf_apply, truncf_apply, xslice_apply, truncf_apply]

theorem kNll_eq (x : FVec Ideal S4096x2048 .f32) (W : FVec Ideal S32000x2048 .f32) (y : IVec S4096 32)
    (hg : Cert.Spec.Good x W y) (Mo Lo : FVec Ideal S4096x1 .f32)
    (hM : ∀ b : Fin 4096, Mo (ix2 b (0 : Fin 1)) = ((Cert.Spec.rowMax x W b : ℝ) : EReal))
    (hL : ∀ b : Fin 4096, Lo (ix2 b (0 : Fin 1)) = ((Real.log (Cert.Spec.sumExp x W b) : ℝ) : EReal)) :
    kNll Mo Lo (truncf .bf16 x bitsLt_bf16_f32) W y = Cert.Spec.nllSpec x W y := by
  funext i
  obtain ⟨b, rfl⟩ : ∃ b : Fin 2048, i = ix1 b := ⟨i 0, eq_ix1 i⟩

  have hidx : idxCol (wrapVec (safeVec y)) (ix2 b (0 : Fin 1)) = Cert.Spec.wrapW (Cert.Spec.safeW y b) := by
    unfold idxCol
    rw [col_bcast_apply, wrapVec_apply, safeVec_apply]
  have hin : inRange (idxCol (wrapVec (safeVec y))) (ix1 b) = 1#1 := by
    rw [inRange_apply, hidx, (hg.hy b).1, (hg.hy b).2]
    rfl

  have hdot : dots (truncf .bf16 x bitsLt_bf16_f32) (takeRows W (idxCol (wrapVec (safeVec y)))) (ix1 b)
      = ((Cert.Spec.logit x W (Cert.Spec.up b) (Cert.Spec.tgt y b) : ℝ) : EReal) := by
    rw [dots_apply]
    unfold Cert.Spec.logit
    rw [← Cert.Online.coe_sum]
    refine Finset.sum_congr rfl (fun k _ => ?_)
    rw [takeRows_apply W _ b k hin, hidx, EReal.coe_mul]
    show x (ix2 (Cert.Spec.up b) k) * W (ix2 (Cert.Spec.tgt y b) k)
      = (((x (ix2 (Cert.Spec.up b) k)).toReal : ℝ) : EReal) * (((W (ix2 (Cert.Spec.tgt y b) k)).toReal : ℝ) : EReal)
    rw [← hg.hx, ← hg.hW]
  rw [kNll_unfold, select_apply, kValid_apply, splat_apply, subf_apply, addf_apply, slice0_apply, slice0_apply,
    col_apply, col_apply, hM, hL, hdot]
  show Scalar.select (Cert.Spec.validW y b) _ (Ideal.ofBits .f32 0x00000000#32)
    = Scalar.select (Cert.Spec.validW y b) ((Cert.Spec.nllR x W y b : ℝ) : EReal) (0 : EReal)
  rw [Ideal.ofBits_zero_f32]
  unfold Cert.Spec.nllR
  rw [EReal.coe_sub, EReal.coe_add]

theorem out_eq (x : FVec Ideal S4096x2048 .f32) (W : FVec Ideal S32000x2048 .f32) (y : IVec S4096 32)
    (hg : Cert.Spec.Good x W y) (Mo Lo So : FVec Ideal S4096x1 .f32)
    (hM : ∀ b : Fin 4096, Mo (ValueIdx.ix2 b (0 : Fin 1)) = ((Cert.Spec.rowMax x W b : ℝ) : EReal))
    (hL : ∀ b : Fin 4096, Lo (ValueIdx.ix2 b (0 : Fin 1)) = ((Real.log (Cert.Spec.sumExp x W b) : ℝ) : EReal))
    (hS : ∀ b : Fin 4096, So (ValueIdx.ix2 b (0 : Fin 1)) = ((Cert.Spec.rowSum x W b : ℝ) : EReal)) :
    Cert.KernelIdeal.KOut.out Mo Lo So (truncf .bf16 x bitsLt_bf16_f32) W y = Cert.Spec.result x W y := by
  unfold Cert.KernelIdeal.KOut.out Cert.Spec.result
  rw [kValid_eq, kAlp_eq x W Mo Lo So hM hL hS, kNll_eq x W y hg Mo Lo hM hL]

end Cert.KernelIdeal.KOutValue

end
-- ==== Proof.KI.Result.lean ====
import proofs.«424783_j8701603741901_3_alg».proof.Proof.KI.TailVal
import proofs.«424783_j8701603741901_3_alg».proof.Proof.KOutValue

set_option maxRecDepth 16384

noncomputable section

namespace Cert.KernelIdeal.HandVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable (m : (ℓ : Loc nD τ sig) → Buf (Elt Ideal) ℓ) (ρ : Dev nD → PrngReg)

theorem arr0_eq (c : Dev nD) :
    ((dats (F := Ideal) m 0 c).arrAt 0 cfg0.N : S4096x2048.Idx → EReal) = truncf (F := Ideal) .bf16 (m ((c.tc : Thread nD τ).loc main_arg0)) bitsLt_bf16_f32 :=
  ((dats (F := Ideal) m 0 c).arrAt_in 0 rfl _).trans ((A_eq m c 0).trans (entry_cast m c))

theorem arr1_eq (c : Dev nD) :
    ((dats (F := Ideal) m 0 c).arrAt 1 cfg0.N : S32000x2048.Idx → EReal) = m ((c.tc : Thread nD τ).loc main_arg1) :=
  ((dats (F := Ideal) m 0 c).arrAt_in 1 rfl _).trans ((A_eq m c 1).trans (V_main_arg1 m c))

theorem run_result
    (hg : ∀ c : Dev nD, Cert.Spec.Good (m ((c.tc : Thread nD τ).loc main_arg0)) (m ((c.tc : Thread nD τ).loc main_arg1)) (m ((c.tc : Thread nD τ).loc main_arg2)))
    (hfin : ∀ (c : Dev nD) (b : Fin 4096),
      ((dats (F := Ideal) m 0 c).arrAt 2 cfg0.N : S4096x1.Idx → EReal) (ValueIdx.ix2 b (0 : Fin 1)) = ((Cert.Spec.rowMax (m ((c.tc : Thread nD τ).loc main_arg0)) (m ((c.tc : Thread nD τ).loc main_arg1)) b : ℝ) : EReal)
      ∧ ((dats (F := Ideal) m 0 c).arrAt 3 cfg0.N : S4096x1.Idx → EReal) (ValueIdx.ix2 b (0 : Fin 1)) = ((Real.log (Cert.Spec.sumExp (m ((c.tc : Thread nD τ).loc main_arg0)) (m ((c.tc : Thread nD τ).loc main_arg1)) b) : ℝ) : EReal)
      ∧ ((dats (F := Ideal) m 0 c).arrAt 4 cfg0.N : S4096x1.Idx → EReal) (ValueIdx.ix2 b (0 : Fin 1)) = ((Cert.Spec.rowSum (m ((c.tc : Thread nD τ).loc main_arg0)) (m ((c.tc : Thread nD τ).loc main_arg1)) b : ℝ) : EReal)) :
    θ_run (defs (F := Ideal)) (onTc (τ := τ) (main (F := Ideal))) ⟨m, fun _ => 0, ρ⟩ (fun r => ∀ c : Dev nD,
      r.2.mem ((c.tc : Thread nD τ).loc main_v47) = Cert.Spec.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main (F := Ideal) m ρ)
  · refine ((h c).2 main_v47 (Pipeline.mem_restRefs_of main_v47 (by decide) (by decide))).trans ?_
    refine (tail_val m c).trans ?_
    rw [arr0_eq m c, arr1_eq m c, show V0 m c (Proc.devRef .tc main_arg2) = m ((c.tc : Thread nD τ).loc main_arg2) from V_main_arg2 m c]
    exact Cert.KernelIdeal.KOutValue.out_eq _ _ _ (hg c) _ _ _ (fun b => (hfin c b).1) (fun b => (hfin c b).2.1) (fun b => (hfin c b).2.2)
  · exact ((h c).2 main_arg0 (Pipeline.mem_restRefs_of main_arg0 (by decide) (by decide))).trans (W_main_arg0 m (dats m) c)
  · exact ((h c).1 1).trans (arr1_eq m c)
  · exact ((h c).2 main_arg2 (Pipeline.mem_restRefs_of main_arg2 (by decide) (by decide))).trans (W_main_arg2 m (dats m) c)

end Cert.KernelIdeal.HandVal

end
-- ==== Proof.KI.Pieces.lean ====
import proofs.«424783_j8701603741901_3_alg».proof.Proof.KI.Frame
import Idealize.ShloMosaic.Lib.Pipeline.Value
import Idealize.ShloMosaic.Lib.Tactic

set_option maxRecDepth 16384

noncomputable section

namespace Cert.KernelIdeal.HandVal

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

theorem hz : (![0, 0] : Fin 2 → Nat) = fun _ => 0 := funext fun a => by fin_cases a <;> rfl

section
variable (c : Dev nD) (i : grid0.Coords)
  (arg2 : Memref sig .tc .vmem S2048x2048 .bf16) (harg2 : arg2.IsWhole) (arg3 : Memref sig .tc .vmem S640x2048 .f32) (harg3 : arg3.IsWhole)
  (arg4 : Memref sig .tc .vmem S2048x1 .f32) (harg4 : arg4.IsWhole) (arg5 : Memref sig .tc .vmem S2048x1 .f32) (harg5 : arg5.IsWhole)
  (arg6 : Memref sig .tc .vmem S2048x1 .f32) (harg6 : arg6.IsWhole) (arg7 : Memref sig .tc .vmem S2048x1 .f32) (harg7 : arg7.IsWhole)
  (arg8 : Memref sig .tc .vmem S2048x1 .f32) (harg8 : arg8.IsWhole) (arg9 : Memref sig .tc .vmem S2048x1 .f32) (harg9 : arg9.IsWhole)

section
variable (hc0 : cond0_0 i) (hc1 : ¬cond0_1 i) (x0 : Vec F S2048x2048 .bf16) (x1 : Vec F S640x2048 .f32)

/-- At vocabulary tile 0 each scratch column ends at the update of the reset values (-∞, 0, 0): every column is stored
    whole, so it holds the last store's payload, and a load after a store reads that payload. -/
theorem soutA_eq :
    sout0_A_0 c i arg2 harg2 arg3 harg3 arg4 harg4 arg5 harg5 arg6 harg6 arg7 harg7 arg8 harg8 arg9 harg9 hc0 hc1 x0 x1 = k0_pay1 (k0_pay7 x1 x0 (k0_pay3 (F := F)))
    ∧ sout0_A_1 c i arg2 harg2 arg3 harg3 arg4 harg4 arg5 harg5 arg6 harg6 arg7 harg7 arg8 harg8 arg9 harg9 hc0 hc1 x0 x1 = k0_pay8 x1 x0 (k0_pay3 (F := F)) (k0_pay3 (F := F)) (k0_pay4 (F := F))
    ∧ sout0_A_2 c i arg2 harg2 arg3 harg3 arg4 harg4 arg5 harg5 arg6 harg6 arg7 harg7 arg8 harg8 arg9 harg9 hc0 hc1 x0 x1 = k0_pay9 x1 x0 (k0_pay5 (F := F)) := by
  refine ⟨?a, ?b, ?c⟩
  case' a => unfold sout0_A_0; rw [View.read_writes_eq_canon _ _ _ (scover0_A_0 c i arg2 harg2 arg3 harg3 arg4 harg4 arg5 harg5 arg6 harg6 arg7 harg7 arg8 harg8 arg9 harg9 hc0 hc1 x0 x1)]
  case' b => unfold sout0_A_1; rw [View.read_writes_eq_canon _ _ _ (scover0_A_1 c i arg2 harg2 arg3 harg3 arg4 harg4 arg5 harg5 arg6 harg6 arg7 harg7 arg8 harg8 arg9 harg9 hc0 hc1 x0 x1)]
  case' c => unfold sout0_A_2; rw [View.read_writes_eq_canon _ _ _ (scover0_A_2 c i arg2 harg2 arg3 harg3 arg4 harg4 arg5 harg5 arg6 harg6 arg7 harg7 arg8 harg8 arg9 harg9 hc0 hc1 x0 x1)]
  all_goals
    unfold kernelRun0_A
    dsimp only
    sl_unfold_words
    rw [View.canon_cons_unit_zero (S := S2048x1) hz]
    simp only [View.readAt_eq_ld, harg2.read_unread, harg3.read_unread, harg7.read_unread, harg8.read_unread,
      harg9.read_unread, View.ld_unit_zero (S := S640x2048) hz, View.ld_unit_zero (S := S2048x2048) hz,
      View.ld_unit_zero (S := S2048x1) hz, View.readCov_unit_zero (S := S2048x1) _ hz]

end

section
variable (hc0 : ¬cond0_0 i) (hc1 : ¬cond0_1 i) (x0 : Vec F S2048x2048 .bf16) (x1 : Vec F S640x2048 .f32) (xs0 xs1 xs2 : Vec F S2048x1 .f32)

/-- At a middle tile each scratch column ends at the update of what the point before left. -/
theorem soutB_eq :
    sout0_B_0 c i arg2 harg2 arg3 harg3 arg4 harg4 arg5 harg5 arg6 harg6 arg7 harg7 arg8 harg8 arg9 harg9 hc0 hc1 x0 x1 xs0 xs1 xs2 = k0_pay1 (k0_pay7 x1 x0 xs0)
    ∧ sout0_B_1 c i arg2 harg2 arg3 harg3 arg4 harg4 arg5 harg5 arg6 harg6 arg7 harg7 arg8 harg8 arg9 harg9 hc0 hc1 x0 x1 xs0 xs1 xs2 = k0_pay8 x1 x0 xs0 xs0 xs1
    ∧ sout0_B_2 c i arg2 harg2 arg3 harg3 arg4 harg4 arg5 harg5 arg6 harg6 arg7 harg7 arg8 harg8 arg9 harg9 hc0 hc1 x0 x1 xs0 xs1 xs2 = k0_pay9 x1 x0 xs2 := by
  refine ⟨?a, ?b, ?c⟩
  case' a => unfold sout0_B_0; rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  case' b => unfold sout0_B_1; rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  case' c => unfold sout0_B_2; rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  all_goals
    unfold kernelRun0_B
    dsimp only
    sl_unfold_words
    rw [View.canon_unit_zero (S := S2048x1) hz]
    simp only [View.readAt_eq_ld, harg2.read_unread, harg3.read_unread, harg7.read_unread, harg8.read_unread,
      harg9.read_unread, View.ld_unit_zero (S := S640x2048) hz, View.ld_unit_zero (S := S2048x2048) hz,
      View.ld_unit_zero (S := S2048x1) hz, View.readCov_unit_zero (S := S2048x1) _ hz]

end

section
variable (hc0 : ¬cond0_0 i) (hc1 : cond0_1 i) (x0 : Vec F S2048x2048 .bf16) (x1 : Vec F S640x2048 .f32) (xs0 xs1 xs2 : Vec F S2048x1 .f32)

/-- At vocabulary tile 49 the same update, and the output columns are copies of the updated scratch columns, the second
    through the logarithm. -/
theorem colsC_eq :
    sout0_C_0 c i arg2 harg2 arg3 harg3 arg4 harg4 arg5 harg5 arg6 harg6 arg7 harg7 arg8 harg8 arg9 harg9 hc0 hc1 x0 x1 xs0 xs1 xs2 = k0_pay1 (k0_pay7 x1 x0 xs0)
    ∧ sout0_C_1 c i arg2 harg2 arg3 harg3 arg4 harg4 arg5 harg5 arg6 harg6 arg7 harg7 arg8 harg8 arg9 harg9 hc0 hc1 x0 x1 xs0 xs1 xs2 = k0_pay8 x1 x0 xs0 xs0 xs1
    ∧ sout0_C_2 c i arg2 harg2 arg3 harg3 arg4 harg4 arg5 harg5 arg6 harg6 arg7 harg7 arg8 harg8 arg9 harg9 hc0 hc1 x0 x1 xs0 xs1 xs2 = k0_pay9 x1 x0 xs2
    ∧ out0_C_2 c i arg2 harg2 arg3 harg3 arg4 harg4 arg5 harg5 arg6 harg6 arg7 harg7 arg8 harg8 arg9 harg9 hc0 hc1 x0 x1 xs0 xs1 xs2 = k0_pay1 (k0_pay7 x1 x0 xs0)
    ∧ out0_C_3 c i arg2 harg2 arg3 harg3 arg4 harg4 arg5 harg5 arg6 harg6 arg7 harg7 arg8 harg8 arg9 harg9 hc0 hc1 x0 x1 xs0 xs1 xs2 = k0_pay2 (k0_pay8 x1 x0 xs0 xs0 xs1)
    ∧ out0_C_4 c i arg2 harg2 arg3 harg3 arg4 harg4 arg5 harg5 arg6 harg6 arg7 harg7 arg8 harg8 arg9 harg9 hc0 hc1 x0 x1 xs0 xs1 xs2 = k0_pay9 x1 x0 xs2 := by
  refine ⟨?a, ?b, ?c, ?d, ?e, ?f⟩
  case' a => unfold sout0_C_0; rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  case' b => unfold sout0_C_1; rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  case' c => unfold sout0_C_2; rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  case' d => unfold out0_C_2; rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  case' e => unfold out0_C_3; rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  case' f => unfold out0_C_4; rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  all_goals
    unfold kernelRun0_C
    dsimp only
    sl_unfold_words
    rw [View.canon_unit_zero (S := S2048x1) hz]
    simp only [View.readAt_eq_ld, harg2.read_unread, harg3.read_unread, harg7.read_unread, harg8.read_unread,
      harg9.read_unread, View.ld_unit_zero (S := S640x2048) hz, View.ld_unit_zero (S := S2048x2048) hz,
      View.ld_unit_zero (S := S2048x1) hz, View.readCov_unit_zero (S := S2048x1) _ hz]

end

end

end Cert.KernelIdeal.HandVal

end
-- ==== Proof.KI.InvariantRow.lean ====
import proofs.«424783_j8701603741901_3_alg».proof.Proof.Gen.KernelIdeal.Skeleton
import proofs.«424783_j8701603741901_3_alg».proof.Proof.Spec
import proofs.«424783_j8701603741901_3_alg».proof.Proof.OnlineSoftmax
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandVal

open Idealize.ShloMosaic Idealize.ShloMosaic.ValueIdx Idealize.SL.Sem
open Cert.KernelIdeal Cert.KernelIdeal.Gen

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem broadcastTo_a1_ab_apply {α : Type} {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

theorem lhs_tile_0 (i : S2048x640.Idx) (q : dot_S2048x2048_S640x2048_S2048x640_1_1_0_0_n_n.contr.Idx) :
    (dot_S2048x2048_S640x2048_S2048x640_1_1_0_0_n_n.lhsIdx i q 0).val = (i 0).val := by
  unfold DotDims.lhsIdx
  rw [dif_neg (show ¬(0 : Fin S2048x2048.rank) ∈ dot_S2048x2048_S640x2048_S2048x640_1_1_0_0_n_n.lhsBatch by decide),
    dif_pos (show (0 : Fin S2048x2048.rank) ∈ dot_S2048x2048_S640x2048_S2048x640_1_1_0_0_n_n.lhsNonContracting by decide)]
  rfl
theorem lhs_tile_1 (i : S2048x640.Idx) (q : dot_S2048x2048_S640x2048_S2048x640_1_1_0_0_n_n.contr.Idx) :
    (dot_S2048x2048_S640x2048_S2048x640_1_1_0_0_n_n.lhsIdx i q 1).val = (q ⟨0, by decide⟩).val :=
  dot_S2048x2048_S640x2048_S2048x640_1_1_0_0_n_n.lhsIdx_val_of_single rfl i q
theorem rhs_tile_0 (i : S2048x640.Idx) (q : dot_S2048x2048_S640x2048_S2048x640_1_1_0_0_n_n.contr.Idx) :
    (dot_S2048x2048_S640x2048_S2048x640_1_1_0_0_n_n.rhsIdx i q 0).val = (i 1).val := by
  unfold DotDims.rhsIdx
  rw [dif_neg (show ¬(0 : Fin S640x2048.rank) ∈ dot_S2048x2048_S640x2048_S2048x640_1_1_0_0_n_n.rhsBatch by decide),
    dif_pos (show (0 : Fin S640x2048.rank) ∈ dot_S2048x2048_S640x2048_S2048x640_1_1_0_0_n_n.rhsNonContracting by decide)]
  rfl
theorem rhs_tile_1 (i : S2048x640.Idx) (q : dot_S2048x2048_S640x2048_S2048x640_1_1_0_0_n_n.contr.Idx) :
    (dot_S2048x2048_S640x2048_S2048x640_1_1_0_0_n_n.rhsIdx i q 1).val = (q ⟨0, by decide⟩).val :=
  dot_S2048x2048_S640x2048_S2048x640_1_1_0_0_n_n.rhsIdx_val_of_single rfl i q

theorem pay6_apply (xW : Vec Ideal S640x2048 .f32) (xX : Vec Ideal S2048x2048 .bf16) (r : Fin 2048) (j : Fin 640) :
    k0_pay6 (F := Ideal) xW xX (ix2 r j) = ∑ h : Fin 2048, xX (ix2 r h) * xW (ix2 j h) := by
  unfold k0_pay6
  refine (Ideal.matmul_constant_zero_apply dot_S2048x2048_S640x2048_S2048x640_1_1_0_0_n_n none _ _ (ix2 r j)).trans ?_
  rw [← Equiv.sum_comp (contrEquiv1 dot_S2048x2048_S640x2048_S2048x640_1_1_0_0_n_n 2048 rfl rfl).symm]
  refine Finset.sum_congr rfl fun k _ => ?_
  have hk := contrEquiv1_symm_val dot_S2048x2048_S640x2048_S2048x640_1_1_0_0_n_n 2048 rfl rfl k
  have el : dot_S2048x2048_S640x2048_S2048x640_1_1_0_0_n_n.lhsIdx (ix2 r j) ((contrEquiv1 dot_S2048x2048_S640x2048_S2048x640_1_1_0_0_n_n 2048 rfl rfl).symm k) = ix2 r k :=
    funext fun a => Fin.ext (by
      match a with
      | ⟨0, _⟩ => exact lhs_tile_0 _ _
      | ⟨1, _⟩ => exact (lhs_tile_1 _ _).trans hk)
  have er : dot_S2048x2048_S640x2048_S2048x640_1_1_0_0_n_n.rhsIdx (ix2 r j) ((contrEquiv1 dot_S2048x2048_S640x2048_S2048x640_1_1_0_0_n_n 2048 rfl rfl).symm k) = ix2 j k :=
    funext fun a => Fin.ext (by
      match a with
      | ⟨0, _⟩ => exact rhs_tile_0 _ _
      | ⟨1, _⟩ => exact (rhs_tile_1 _ _).trans hk)
  rw [el, er, shapeCast_self]
  rfl

theorem negInf : (Ideal.ofBits .f32 0xFF800000#32 : EReal) = ⊥ := by simp [Ideal.ofBits, Ideal.ieee]

theorem lift_row (r : Fin 2048) (k : Fin 640) : reduces_S2048x640_S2048.lift (ix1 r) k = ix2 r k :=
  funext fun a => Fin.ext (by
    match a with
    | ⟨0, _⟩ => rfl
    | ⟨1, _⟩ => rfl)

theorem rowmax_apply (T : FVec Ideal S2048x640 .f32) (r : Fin 2048) :
    multiReduction (F := Ideal) .maximumf [1] S2048 T 0xFF800000#32 reduces_S2048x640_S2048 (.inl rfl) rfl (ix1 r)
      = (Finset.univ : Finset (Fin 640)).fold max ⊥ (fun j => T (ix2 r j)) := by
  refine (Ideal.multiReduction_maximumf_single T 0xFF800000#32 reduces_S2048x640_S2048 (.inl rfl) rfl (ix1 r)).trans ?_
  show (Finset.univ : Finset (Fin 640)).fold max (Ideal.ofBits .f32 0xFF800000#32) (fun k => T (reduces_S2048x640_S2048.lift (ix1 r) k)) = _
  rw [negInf]
  exact congrArg (fun f : Fin 640 → EReal => (Finset.univ : Finset (Fin 640)).fold max ⊥ f)
    (funext fun k => congrArg T (lift_row r k))

theorem rowsum_apply (T : FVec Ideal S2048x640 .f32) (r : Fin 2048) :
    multiReduction (F := Ideal) .add [1] S2048 T 0x00000000#32 reduces_S2048x640_S2048 (.inl rfl) rfl (ix1 r)
      = ∑ j : Fin 640, T (ix2 r j) := by
  refine (Ideal.multiReduction_add_single T 0x00000000#32 reduces_S2048x640_S2048 (.inl rfl) rfl (ix1 r)).trans ?_
  show ∑ k : Fin 640, T (reduces_S2048x640_S2048.lift (ix1 r) k) = _
  exact Finset.sum_congr rfl fun k _ => congrArg T (lift_row r k)

theorem pay7_apply (xW : Vec Ideal S640x2048 .f32) (xX : Vec Ideal S2048x2048 .bf16) (m : Vec Ideal S2048x1 .f32) (r : Fin 2048) :
    k0_pay7 (F := Ideal) xW xX m (ix2 r (0 : Fin 1))
      = max (m (ix2 r (0 : Fin 1))) ((Finset.univ : Finset (Fin 640)).fold max ⊥ (fun j => k0_pay6 (F := Ideal) xW xX (ix2 r j))) := by
  unfold k0_pay7
  refine (maximumf_apply _ _ _).trans ?_
  refine congrArg (max (m (ix2 r (0 : Fin 1)))) ?_
  refine (shapeCast_a_a1_apply _ _ r (0 : Fin 1)).trans ?_
  exact rowmax_apply _ r

theorem pay1_apply (v : FVec Ideal S2048x1 .f32) (i : S2048x1.Idx) : k0_pay1 (F := Ideal) v i = v i := by
  unfold k0_pay1
  exact congrFun (shapeCast_self _ _) i

theorem pay8_apply (xW : Vec Ideal S640x2048 .f32) (xX : Vec Ideal S2048x2048 .bf16) (m m' l : Vec Ideal S2048x1 .f32) (r : Fin 2048) :
    k0_pay8 (F := Ideal) xW xX m m' l (ix2 r (0 : Fin 1))
      = Ideal.exp (m' (ix2 r (0 : Fin 1)) - k0_pay7 (F := Ideal) xW xX m (ix2 r (0 : Fin 1))) * l (ix2 r (0 : Fin 1))
        + ∑ j : Fin 640, Ideal.exp (k0_pay6 (F := Ideal) xW xX (ix2 r j) - k0_pay7 (F := Ideal) xW xX m (ix2 r (0 : Fin 1))) := by
  unfold k0_pay8
  refine (congrFun (shapeCast_self _ _) _).trans ?_
  refine (addf_apply _ _ _).trans ?_
  refine congrArg₂ (· + ·) rfl ?_
  refine (shapeCast_a_a1_apply _ _ r (0 : Fin 1)).trans ?_
  refine (rowsum_apply _ r).trans ?_
  refine Finset.sum_congr rfl fun j _ => ?_
  show Ideal.exp (k0_pay6 (F := Ideal) xW xX (ix2 r j) - broadcastTo S2048x640 (k0_pay7 (F := Ideal) xW xX m) broadcasts_S2048x1_S2048x640 (ix2 r j)) = _
  rw [broadcastTo_a1_ab_apply]

theorem pay9_apply (xW : Vec Ideal S640x2048 .f32) (xX : Vec Ideal S2048x2048 .bf16) (s : Vec Ideal S2048x1 .f32) (r : Fin 2048) :
    k0_pay9 (F := Ideal) xW xX s (ix2 r (0 : Fin 1))
      = s (ix2 r (0 : Fin 1)) + ∑ j : Fin 640, k0_pay6 (F := Ideal) xW xX (ix2 r j) := by
  unfold k0_pay9
  refine (congrFun (shapeCast_self _ _) _).trans ?_
  refine (addf_apply _ _ _).trans ?_
  refine congrArg (s (ix2 r (0 : Fin 1)) + ·) ?_
  refine (shapeCast_a_a1_apply _ _ r (0 : Fin 1)).trans ?_
  exact rowsum_apply _ r

theorem pay3_apply (i : S2048x1.Idx) : k0_pay3 (F := Ideal) i = ⊥ := by
  unfold k0_pay3
  refine (congrFun (shapeCast_self _ _) i).trans ?_
  exact negInf
theorem pay4_apply (i : S2048x1.Idx) : k0_pay4 (F := Ideal) i = 0 := by
  unfold k0_pay4
  refine (congrFun (shapeCast_self _ _) i).trans ?_
  exact Ideal.ofBits_zero_f32
theorem pay5_apply (i : S2048x1.Idx) : k0_pay5 (F := Ideal) i = 0 := by
  unfold k0_pay5
  refine (congrFun (shapeCast_self _ _) i).trans ?_
  exact Ideal.ofBits_zero_f32

theorem step_row (xW : Vec Ideal S640x2048 .f32) (xX : Vec Ideal S2048x2048 .bf16) (m l s : Vec Ideal S2048x1 .f32)
    (r : Fin 2048) (t : Fin 640 → ℝ) (hT : ∀ j, k0_pay6 (F := Ideal) xW xX (ix2 r j) = ((t j : ℝ) : EReal))
    (p : EReal × EReal × EReal) (hm : m (ix2 r (0 : Fin 1)) = p.1) (hl : l (ix2 r (0 : Fin 1)) = p.2.1)
    (hs : s (ix2 r (0 : Fin 1)) = p.2.2) :
    k0_pay1 (F := Ideal) (k0_pay7 (F := Ideal) xW xX m) (ix2 r (0 : Fin 1)) = (Cert.Online.step t p).1
    ∧ k0_pay8 (F := Ideal) xW xX m m l (ix2 r (0 : Fin 1)) = (Cert.Online.step t p).2.1
    ∧ k0_pay9 (F := Ideal) xW xX s (ix2 r (0 : Fin 1)) = (Cert.Online.step t p).2.2 := by
  have h7 : k0_pay7 (F := Ideal) xW xX m (ix2 r (0 : Fin 1)) = (Cert.Online.step t p).1 := by
    rw [pay7_apply, hm]
    simp only [hT]
    rfl
  refine ⟨(pay1_apply _ _).trans h7, ?_, ?_⟩
  · rw [pay8_apply, h7, hm, hl]
    simp only [hT]
    rfl
  · rw [pay9_apply, hs]
    simp only [hT]
    rfl

end Cert.KernelIdeal.HandVal

end
-- ==== Proof.KI.Invariant.lean ====
import proofs.«424783_j8701603741901_3_alg».proof.Proof.KI.Frame
import proofs.«424783_j8701603741901_3_alg».proof.Proof.KI.Pieces
import proofs.«424783_j8701603741901_3_alg».proof.Proof.KI.InvariantRow
import proofs.«424783_j8701603741901_3_alg».proof.Proof.Spec
import proofs.«424783_j8701603741901_3_alg».proof.Proof.OnlineSoftmax
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.KernelIdeal.HandVal

open Idealize.ShloMosaic Idealize.ShloMosaic.TcCoe Idealize.ShloMosaic.Tactic Idealize.ShloMosaic.ValueIdx Idealize.SL.Sem
open Cert.KernelIdeal Cert.KernelIdeal.Gen Cert.KernelIdeal.Hand

variable (m : (ℓ : Loc nD τ sig) → Buf (Elt Ideal) ℓ)

def rowOf (t : Fin cfg0.N) (r : Fin 2048) : Fin 4096 := ⟨2048 * (t.val / 50) + r.val, by have := t.isLt; have : cfg0.N = 100 := N_0; omega⟩

abbrev xblk (c : Dev nD) (t : Fin cfg0.N) : Vec Ideal S2048x2048 .bf16 := iblk m c 0 t

abbrev wblk (c : Dev nD) (t : Fin cfg0.N) : Vec Ideal S640x2048 .f32 := iblk m c 1 t

abbrev xarr (c : Dev nD) : Vec Ideal S4096x2048 .bf16 := V m c main_v0

abbrev warr (c : Dev nD) : Vec Ideal S32000x2048 .f32 := V m c main_arg1

theorem idx_facts : ∀ t : Fin cfg0.N, win0_0.index t 0 = t.val / 50 ∧ win0_0.index t 1 = 0
    ∧ win0_1.index t 0 = t.val % 50 ∧ win0_1.index t 1 = 0 :=
  (by decide +kernel : ∀ t : Fin grid0.N, win0_0.index t 0 = t.val / 50 ∧ win0_0.index t 1 = 0
    ∧ win0_1.index t 0 = t.val % 50 ∧ win0_1.index t 1 = 0)

theorem xblk_apply (c : Dev nD) (t : Fin cfg0.N) (r h : Fin 2048) :
    xblk m c t (ix2 r h) = xarr m c (ix2 (rowOf t r) h) := by
  show iblk m c 0 t (ix2 r h) = V m c main_v0 (ix2 (rowOf t r) h)
  unfold iblk
  rw [View.read_apply]
  show V m c main_v0 _ = V m c main_v0 _
  congr 1
  funext a
  apply Fin.ext
  match a with
  | ⟨0, _⟩ =>
    show win0_0.index t 0 * 2048 + 1 * r.val = 2048 * (t.val / 50) + r.val
    rw [(idx_facts t).1]; omega
  | ⟨1, _⟩ =>
    show win0_0.index t 1 * 2048 + 1 * h.val = h.val
    rw [(idx_facts t).2.1]; omega

theorem wblk_apply (c : Dev nD) (t : Fin cfg0.N) (j : Fin 640) (h : Fin 2048) (v : Fin 32000)
    (hv : v.val = 640 * (t.val % 50) + j.val) :
    wblk m c t (ix2 j h) = warr m c (ix2 v h) := by
  show iblk m c 1 t (ix2 j h) = V m c main_arg1 (ix2 v h)
  unfold iblk
  rw [View.read_apply]
  show V m c main_arg1 _ = V m c main_arg1 _
  congr 1
  funext a
  apply Fin.ext
  match a with
  | ⟨0, _⟩ =>
    show win0_1.index t 0 * 640 + 1 * j.val = v.val
    rw [(idx_facts t).2.2.1, hv]; omega
  | ⟨1, _⟩ =>
    show win0_1.index t 1 * 2048 + 1 * h.val = h.val
    rw [(idx_facts t).2.2.2]; omega

theorem xarr_apply (c : Dev nD) (i : S4096x2048.Idx) :
    xarr m c i = ((m ((c.tc : Thread nD τ).loc main_arg0)) : Vec Ideal S4096x2048 .f32) i := by
  have e : (V m c main_v0 : S4096x2048.Idx → EReal)
      = truncf (F := Ideal) .bf16 ((m ((c.tc : Thread nD τ).loc main_arg0)) : Vec Ideal S4096x2048 .f32) bitsLt_bf16_f32 := by
    show StableHlo.after hostOps0 (fun b => m (c, b)) (Proc.devRef .tc main_v0) = _
    after_results
  exact congrFun e i

theorem warr_eq (c : Dev nD) : warr m c = (m ((c.tc : Thread nD τ).loc main_arg1)) := V_main_arg1 m c

theorem tile_apply (c : Dev nD) (hg : Cert.Spec.Good (m ((c.tc : Thread nD τ).loc main_arg0)) (m ((c.tc : Thread nD τ).loc main_arg1)) (m ((c.tc : Thread nD τ).loc main_arg2)))
    (t : Fin cfg0.N) (r : Fin 2048) (j : Fin 640) :
    k0_pay6 (F := Ideal) (wblk m c t) (xblk m c t) (ix2 r j)
      = ((Cert.Online.tileOf (m ((c.tc : Thread nD τ).loc main_arg0)) (m ((c.tc : Thread nD τ).loc main_arg1)) (rowOf t r) (t.val % 50) j : ℝ) : EReal) := by
  have hk : t.val % 50 < 50 := Nat.mod_lt _ (by norm_num)
  refine (pay6_apply (wblk m c t) (xblk m c t) r j).trans ?_
  rw [Cert.Online.tileOf_lt _ _ _ _ hk j]
  unfold Cert.Spec.logit
  rw [← Cert.Online.coe_sum]
  refine Finset.sum_congr rfl fun h _ => ?_
  rw [EReal.coe_mul]
  refine congrArg₂ (· * ·) ?_ ?_
  · refine (xblk_apply m c t r h).trans ?_
    refine (xarr_apply m c _).trans ?_
    exact hg.hx _
  · refine (wblk_apply m c t j h ⟨640 * (t.val % 50) + j.val, by omega⟩ rfl).trans ?_
    rw [warr_eq]
    exact hg.hW _

theorem row_first (c : Dev nD) (hg : Cert.Spec.Good (m ((c.tc : Thread nD τ).loc main_arg0)) (m ((c.tc : Thread nD τ).loc main_arg1)) (m ((c.tc : Thread nD τ).loc main_arg2)))
    (t : Fin cfg0.N) (h0 : t.val % 50 = 0) (r : Fin 2048) :
    k0_pay1 (F := Ideal) (k0_pay7 (F := Ideal) (wblk m c t) (xblk m c t) (k0_pay3 (F := Ideal))) (ix2 r (0 : Fin 1)) = (Cert.Online.run (Cert.Online.tileOf (m ((c.tc : Thread nD τ).loc main_arg0)) (m ((c.tc : Thread nD τ).loc main_arg1)) (rowOf t r)) (t.val % 50)).1
    ∧ k0_pay8 (F := Ideal) (wblk m c t) (xblk m c t) (k0_pay3 (F := Ideal)) (k0_pay3 (F := Ideal)) (k0_pay4 (F := Ideal)) (ix2 r (0 : Fin 1)) = (Cert.Online.run (Cert.Online.tileOf (m ((c.tc : Thread nD τ).loc main_arg0)) (m ((c.tc : Thread nD τ).loc main_arg1)) (rowOf t r)) (t.val % 50)).2.1
    ∧ k0_pay9 (F := Ideal) (wblk m c t) (xblk m c t) (k0_pay5 (F := Ideal)) (ix2 r (0 : Fin 1)) = (Cert.Online.run (Cert.Online.tileOf (m ((c.tc : Thread nD τ).loc main_arg0)) (m ((c.tc : Thread nD τ).loc main_arg1)) (rowOf t r)) (t.val % 50)).2.2 := by
  have hs := step_row (wblk m c t) (xblk m c t) (k0_pay3 (F := Ideal)) (k0_pay4 (F := Ideal)) (k0_pay5 (F := Ideal)) r
    (Cert.Online.tileOf (m ((c.tc : Thread nD τ).loc main_arg0)) (m ((c.tc : Thread nD τ).loc main_arg1)) (rowOf t r) (t.val % 50)) (tile_apply m c hg t r) (⊥, 0, 0)
    (pay3_apply _) (pay4_apply _) (pay5_apply _)
  have hrun : (Cert.Online.run (Cert.Online.tileOf (m ((c.tc : Thread nD τ).loc main_arg0)) (m ((c.tc : Thread nD τ).loc main_arg1)) (rowOf t r)) (t.val % 50))
      = Cert.Online.step (Cert.Online.tileOf (m ((c.tc : Thread nD τ).loc main_arg0)) (m ((c.tc : Thread nD τ).loc main_arg1)) (rowOf t r) (t.val % 50)) (⊥, 0, 0) := by
    rw [h0]; rfl
  rw [hrun]
  exact hs

theorem row_next (c : Dev nD) (hg : Cert.Spec.Good (m ((c.tc : Thread nD τ).loc main_arg0)) (m ((c.tc : Thread nD τ).loc main_arg1)) (m ((c.tc : Thread nD τ).loc main_arg2)))
    (t : Fin cfg0.N) (h0 : ¬t.val % 50 = 0) (r : Fin 2048) (xs0 xs1 xs2 : Vec Ideal S2048x1 .f32) (b : Fin 4096) (hb : b = rowOf t r)
    (h : xs0 (ix2 r (0 : Fin 1)) = (Cert.Online.run (Cert.Online.tileOf (m ((c.tc : Thread nD τ).loc main_arg0)) (m ((c.tc : Thread nD τ).loc main_arg1)) b) ((t.val - 1) % 50)).1
      ∧ xs1 (ix2 r (0 : Fin 1)) = (Cert.Online.run (Cert.Online.tileOf (m ((c.tc : Thread nD τ).loc main_arg0)) (m ((c.tc : Thread nD τ).loc main_arg1)) b) ((t.val - 1) % 50)).2.1
      ∧ xs2 (ix2 r (0 : Fin 1)) = (Cert.Online.run (Cert.Online.tileOf (m ((c.tc : Thread nD τ).loc main_arg0)) (m ((c.tc : Thread nD τ).loc main_arg1)) b) ((t.val - 1) % 50)).2.2) :
    k0_pay1 (F := Ideal) (k0_pay7 (F := Ideal) (wblk m c t) (xblk m c t) xs0) (ix2 r (0 : Fin 1)) = (Cert.Online.run (Cert.Online.tileOf (m ((c.tc : Thread nD τ).loc main_arg0)) (m ((c.tc : Thread nD τ).loc main_arg1)) (rowOf t r)) (t.val % 50)).1
    ∧ k0_pay8 (F := Ideal) (wblk m c t) (xblk m c t) xs0 xs0 xs1 (ix2 r (0 : Fin 1)) = (Cert.Online.run (Cert.Online.tileOf (m ((c.tc : Thread nD τ).loc main_arg0)) (m ((c.tc : Thread nD τ).loc main_arg1)) (rowOf t r)) (t.val % 50)).2.1
    ∧ k0_pay9 (F := Ideal) (wblk m c t) (xblk m c t) xs2 (ix2 r (0 : Fin 1)) = (Cert.Online.run (Cert.Online.tileOf (m ((c.tc : Thread nD τ).loc main_arg0)) (m ((c.tc : Thread nD τ).loc main_arg1)) (rowOf t r)) (t.val % 50)).2.2 := by
  subst hb
  have hs := step_row (wblk m c t) (xblk m c t) xs0 xs1 xs2 r
    (Cert.Online.tileOf (m ((c.tc : Thread nD τ).loc main_arg0)) (m ((c.tc : Thread nD τ).loc main_arg1)) (rowOf t r) (t.val % 50)) (tile_apply m c hg t r)
    (Cert.Online.run (Cert.Online.tileOf (m ((c.tc : Thread nD τ).loc main_arg0)) (m ((c.tc : Thread nD τ).loc main_arg1)) (rowOf t r)) ((t.val - 1) % 50)) h.1 h.2.1 h.2.2
  have hk : t.val % 50 = (t.val - 1) % 50 + 1 := by omega
  have hrun : (Cert.Online.run (Cert.Online.tileOf (m ((c.tc : Thread nD τ).loc main_arg0)) (m ((c.tc : Thread nD τ).loc main_arg1)) (rowOf t r)) (t.val % 50))
      = Cert.Online.step (Cert.Online.tileOf (m ((c.tc : Thread nD τ).loc main_arg0)) (m ((c.tc : Thread nD τ).loc main_arg1)) (rowOf t r) (t.val % 50)) (Cert.Online.run (Cert.Online.tileOf (m ((c.tc : Thread nD τ).loc main_arg0)) (m ((c.tc : Thread nD τ).loc main_arg1)) (rowOf t r)) ((t.val - 1) % 50)) := by
    rw [hk]; rfl
  rw [hrun]
  exact hs

theorem rowOf_pred (t : Fin cfg0.N) (h0 : ¬t.val % 50 = 0) (hp : t.val - 1 < cfg0.N) (r : Fin 2048) :
    rowOf ⟨t.val - 1, hp⟩ r = rowOf t r := by
  unfold rowOf
  apply Fin.ext
  show 2048 * ((t.val - 1) / 50) + r.val = 2048 * (t.val / 50) + r.val
  omega

theorem scratch_inv (c : Dev nD) (hg : Cert.Spec.Good (m ((c.tc : Thread nD τ).loc main_arg0)) (m ((c.tc : Thread nD τ).loc main_arg1)) (m ((c.tc : Thread nD τ).loc main_arg2))) :
    ∀ (n : ℕ) (hn : n < cfg0.N) (r : Fin 2048),
      (outsAt0 m c n hn).2.2.2.1 (ix2 r (0 : Fin 1)) = (Cert.Online.run (Cert.Online.tileOf (m ((c.tc : Thread nD τ).loc main_arg0)) (m ((c.tc : Thread nD τ).loc main_arg1)) (rowOf ⟨n, hn⟩ r)) (n % 50)).1
      ∧ (outsAt0 m c n hn).2.2.2.2.1 (ix2 r (0 : Fin 1)) = (Cert.Online.run (Cert.Online.tileOf (m ((c.tc : Thread nD τ).loc main_arg0)) (m ((c.tc : Thread nD τ).loc main_arg1)) (rowOf ⟨n, hn⟩ r)) (n % 50)).2.1
      ∧ (outsAt0 m c n hn).2.2.2.2.2 (ix2 r (0 : Fin 1)) = (Cert.Online.run (Cert.Online.tileOf (m ((c.tc : Thread nD τ).loc main_arg0)) (m ((c.tc : Thread nD τ).loc main_arg1)) (rowOf ⟨n, hn⟩ r)) (n % 50)).2.2 := by
  intro n
  induction n using Nat.strong_induction_on with
  | _ n ih =>
    intro hn r
    let t : Fin cfg0.N := ⟨n, hn⟩
    show (outsAt0 m c t.val t.isLt).2.2.2.1 (ix2 r (0 : Fin 1)) = (Cert.Online.run (Cert.Online.tileOf (m ((c.tc : Thread nD τ).loc main_arg0)) (m ((c.tc : Thread nD τ).loc main_arg1)) (rowOf t r)) (t.val % 50)).1
      ∧ (outsAt0 m c t.val t.isLt).2.2.2.2.1 (ix2 r (0 : Fin 1)) = (Cert.Online.run (Cert.Online.tileOf (m ((c.tc : Thread nD τ).loc main_arg0)) (m ((c.tc : Thread nD τ).loc main_arg1)) (rowOf t r)) (t.val % 50)).2.1
      ∧ (outsAt0 m c t.val t.isLt).2.2.2.2.2 (ix2 r (0 : Fin 1)) = (Cert.Online.run (Cert.Online.tileOf (m ((c.tc : Thread nD τ).loc main_arg0)) (m ((c.tc : Thread nD τ).loc main_arg1)) (rowOf t r)) (t.val % 50)).2.2
    by_cases h0 : t.val % 50 = 0
    · have h1 : ¬t.val % 50 = 49 := by omega
      rw [outsAt0_A m c t h0 h1]
      unfold colsA; dsimp only
      have hf := row_first m c hg t h0 r
      obtain ⟨e0, e1, e2⟩ := soutA_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t)
      exact ⟨(congrFun e0 _).trans hf.1, (congrFun e1 _).trans hf.2.1, (congrFun e2 _).trans hf.2.2⟩
    · have hp : t.val - 1 < cfg0.N := Nat.lt_of_le_of_lt (Nat.sub_le _ _) t.isLt
      have hlt : t.val - 1 < n := by show n - 1 < n; have : n % 50 ≠ 0 := h0; omega
      have hprev := ih (t.val - 1) hlt hp r
      rw [rowOf_pred t h0 hp r] at hprev
      let p := (outsAt0 m c (t.val - 1) (Nat.lt_of_le_of_lt (Nat.sub_le _ _) t.isLt))
      have hnx := row_next m c hg t h0 r p.2.2.2.1 p.2.2.2.2.1 p.2.2.2.2.2 (rowOf t r) rfl hprev
      by_cases h1 : t.val % 50 = 49
      · rw [outsAt0_C m c t h0 h1]
        unfold colsC; dsimp only
        obtain ⟨e0, e1, e2, -, -, -⟩ := colsC_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) p.2.2.2.1 p.2.2.2.2.1 p.2.2.2.2.2
        exact ⟨(congrFun e0 _).trans hnx.1, (congrFun e1 _).trans hnx.2.1, (congrFun e2 _).trans hnx.2.2⟩
      · rw [outsAt0_B m c t h0 h1]
        unfold colsB; dsimp only
        obtain ⟨e0, e1, e2⟩ := soutB_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) p.2.2.2.1 p.2.2.2.2.1 p.2.2.2.2.2
        exact ⟨(congrFun e0 _).trans hnx.1, (congrFun e1 _).trans hnx.2.1, (congrFun e2 _).trans hnx.2.2⟩

theorem scratch_at (c : Dev nD) (hg : Cert.Spec.Good (m ((c.tc : Thread nD τ).loc main_arg0)) (m ((c.tc : Thread nD τ).loc main_arg1)) (m ((c.tc : Thread nD τ).loc main_arg2)))
    (t : Fin cfg0.N) (r : Fin 2048) :
    (outsAt0 m c t.val t.isLt).2.2.2.1 (ix2 r (0 : Fin 1)) = (Cert.Online.run (Cert.Online.tileOf (m ((c.tc : Thread nD τ).loc main_arg0)) (m ((c.tc : Thread nD τ).loc main_arg1)) (rowOf t r)) (t.val % 50)).1
    ∧ (outsAt0 m c t.val t.isLt).2.2.2.2.1 (ix2 r (0 : Fin 1)) = (Cert.Online.run (Cert.Online.tileOf (m ((c.tc : Thread nD τ).loc main_arg0)) (m ((c.tc : Thread nD τ).loc main_arg1)) (rowOf t r)) (t.val % 50)).2.1
    ∧ (outsAt0 m c t.val t.isLt).2.2.2.2.2 (ix2 r (0 : Fin 1)) = (Cert.Online.run (Cert.Online.tileOf (m ((c.tc : Thread nD τ).loc main_arg0)) (m ((c.tc : Thread nD τ).loc main_arg1)) (rowOf t r)) (t.val % 50)).2.2 :=
  scratch_inv m c hg t.val t.isLt r

theorem pay2_apply (v : Vec Ideal S2048x1 .f32) (i : S2048x1.Idx) : k0_pay2 (F := Ideal) v i = Ideal.log (v i) := by
  unfold k0_pay2
  rfl

theorem outs_copy (c : Dev nD) (t : Fin cfg0.N) (h0 : ¬t.val % 50 = 0) (h1 : t.val % 50 = 49) (i : S2048x1.Idx) :
    (outsAt0 m c t.val t.isLt).1 i = (outsAt0 m c t.val t.isLt).2.2.2.1 i
    ∧ (outsAt0 m c t.val t.isLt).2.1 i = Ideal.log ((outsAt0 m c t.val t.isLt).2.2.2.2.1 i)
    ∧ (outsAt0 m c t.val t.isLt).2.2.1 i = (outsAt0 m c t.val t.isLt).2.2.2.2.2 i := by
  rw [outsAt0_C m c t h0 h1]
  unfold colsC; dsimp only
  obtain ⟨e0, e1, e2, e3, e4, e5⟩ := colsC_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  exact ⟨(congrFun e3 i).trans (congrFun e0 i).symm,
    (congrFun e4 i).trans ((pay2_apply _ i).trans (congrArg Ideal.log (congrFun e1 i).symm)),
    (congrFun e5 i).trans (congrFun e2 i).symm⟩

theorem outs_last (c : Dev nD) (hg : Cert.Spec.Good (m ((c.tc : Thread nD τ).loc main_arg0)) (m ((c.tc : Thread nD τ).loc main_arg1)) (m ((c.tc : Thread nD τ).loc main_arg2)))
    (t : Fin cfg0.N) (h49 : t.val % 50 = 49) (r : Fin 2048) :
    (outsAt0 m c t.val t.isLt).1 (ix2 r (0 : Fin 1)) = ((Cert.Spec.rowMax (m ((c.tc : Thread nD τ).loc main_arg0)) (m ((c.tc : Thread nD τ).loc main_arg1)) (rowOf t r) : ℝ) : EReal)
    ∧ (outsAt0 m c t.val t.isLt).2.1 (ix2 r (0 : Fin 1)) = ((Real.log (Cert.Spec.sumExp (m ((c.tc : Thread nD τ).loc main_arg0)) (m ((c.tc : Thread nD τ).loc main_arg1)) (rowOf t r)) : ℝ) : EReal)
    ∧ (outsAt0 m c t.val t.isLt).2.2.1 (ix2 r (0 : Fin 1)) = ((Cert.Spec.rowSum (m ((c.tc : Thread nD τ).loc main_arg0)) (m ((c.tc : Thread nD τ).loc main_arg1)) (rowOf t r) : ℝ) : EReal) := by
  have h0 : ¬t.val % 50 = 0 := by omega
  have hc := outs_copy m c t h0 h49 (ix2 r (0 : Fin 1))
  have hs := scratch_at m c hg t r
  rw [h49, Cert.Online.run_last] at hs
  refine ⟨hc.1.trans hs.1, ?_, hc.2.2.trans hs.2.2⟩
  rw [hc.2.1, hs.2.1]
  show Ideal.log ((Cert.Spec.sumExp (m ((c.tc : Thread nD τ).loc main_arg0)) (m ((c.tc : Thread nD τ).loc main_arg1)) (rowOf t r) : ℝ) : EReal) = _
  rw [Ideal.log_coe, if_neg (not_le.mpr (Cert.Online.sumExp_pos _ _ _))]

end Cert.KernelIdeal.HandVal

end
-- ==== Proof.KI.Final.lean ====
import proofs.«424783_j8701603741901_3_alg».proof.Proof.KI.Frame
import proofs.«424783_j8701603741901_3_alg».proof.Proof.Spec
import Idealize.ShloMosaic.Lib.Pipeline.Value
import Idealize.ShloMosaic.Lib.ValueIdx

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

def tileRow (t : Fin cfg0.N) (r : Fin 2048) : Fin 4096 :=
  ⟨2048 * (t.val / 50) + r.val, by
    have ht : t.val < 100 := lt_of_lt_of_eq t.isLt (show cfg0.N = 100 from N_0)
    have hr : r.val < 2048 := r.isLt
    omega⟩

abbrev colOf (f : Fin 4096 → ℝ) : S4096x1.Idx → EReal := fun i => ((f (i 0) : ℝ) : EReal)

theorem block_ext (A B : S2048x1.Idx → EReal)
    (h : ∀ r : Fin 2048, A (ix2 r (0 : Fin 1)) = B (ix2 r (0 : Fin 1))) : A = B := by
  funext j
  obtain ⟨r, q, rfl⟩ : ∃ (r : Fin 2048) (q : Fin 1), j = ix2 r q := ⟨j 0, j 1, eq_ix2 j⟩
  obtain rfl : q = 0 := Subsingleton.elim _ _
  exact h r

def lastPt (i : Fin 2) : Fin cfg0.N :=
  ⟨50 * i.val + 49, by
    have hi : i.val < 2 := i.isLt
    rw [show cfg0.N = 100 from N_0]; omega⟩

theorem lastPt_val (i : Fin 2) : (lastPt i).val = 50 * i.val + 49 := rfl

theorem flush_idx_facts : ∀ t : Fin cfg0.N,
    win0_2.index t (0 : Fin 2) = t.val / 50 ∧ win0_2.index t (1 : Fin 2) = 0
    ∧ win0_3.index t (0 : Fin 2) = t.val / 50 ∧ win0_3.index t (1 : Fin 2) = 0
    ∧ win0_4.index t (0 : Fin 2) = t.val / 50 ∧ win0_4.index t (1 : Fin 2) = 0 :=
  (by decide +kernel : ∀ t : Fin grid0.N, _)

theorem flushed2_of (c : Dev nD) (f : Fin 4096 → ℝ) (t : Fin cfg0.N)
    (h : ∀ r : Fin 2048, (outsAt0 m c t.val t.isLt).1 (ix2 r (0 : Fin 1)) = ((f (tileRow t r) : ℝ) : EReal)) :
    (dats m 0 c).flushed 2 t = ((cfg0.win 2).blk t).view.read (Elt Ideal) (colOf f) := by
  show (cfg0.win 2).cut (grid0.coords t) ((dats m 0 c).after 2 t) = _
  rw [after0_2]
  refine block_ext _ _ (fun r => ?_)
  show (outsAt0 m c t.val t.isLt).1 (ix2 r (0 : Fin 1)) = colOf f (((cfg0.win 2).blk t).view.emb (ix2 r (0 : Fin 1)))
  refine (h r).trans ?_
  have e : tileRow t r = (((cfg0.win 2).blk t).view.emb (ix2 r (0 : Fin 1))) 0 := Fin.ext (by
    show 2048 * (t.val / 50) + r.val = win0_2.index t (0 : Fin 2) * 2048 + 1 * r.val
    rw [(flush_idx_facts t).1]; omega)
  exact congrArg (fun b => ((f b : ℝ) : EReal)) e

theorem mem_blk2 (t : Fin cfg0.N) (i : S4096x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v1_0).slice (win0_2.rect t)).set ↔ _
  rw [View.set_slice_whole, Rect.mem_set_unit]
  exact Iff.rfl

theorem cover2 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hv := lastPt_val ⟨(i 0).val / 2048, by omega⟩
  have hq : (⟨(i 0).val / 2048, by omega⟩ : Fin 2).val = (i 0).val / 2048 := rfl
  obtain ⟨e0, e1, -⟩ := flush_idx_facts (lastPt ⟨(i 0).val / 2048, by omega⟩)
  refine ⟨lastPt ⟨(i 0).val / 2048, by omega⟩, (flush0_2 _).mpr (by omega), ?_⟩
  rw [mem_blk2]
  intro a
  match a with
  | ⟨0, _⟩ =>
    show win0_2.index _ (0 : Fin 2) * 2048 ≤ (i 0).val ∧ (i 0).val < win0_2.index _ (0 : Fin 2) * 2048 + 2048
    rw [e0]; omega
  | ⟨1, _⟩ =>
    show win0_2.index _ (1 : Fin 2) * 1 ≤ (i 1).val ∧ (i 1).val < win0_2.index _ (1 : Fin 2) * 1 + 1
    rw [e1]; omega

theorem final2_of (c : Dev nD) (f : Fin 4096 → ℝ)
    (h : ∀ t : Fin cfg0.N, t.val % 50 = 49 → ∀ r : Fin 2048,
      (outsAt0 m c t.val t.isLt).1 (ix2 r (0 : Fin 1)) = ((f (tileRow t r) : ℝ) : EReal)) :
    (dats m 0 c).arrAt 2 cfg0.N = colOf f :=
  (dats m 0 c).arrAt_eq_of_cover 2 (colOf f) (fun t hf => flushed2_of m c f t (h t ((flush0_2 t).mp hf))) cover2

theorem flushed3_of (c : Dev nD) (f : Fin 4096 → ℝ) (t : Fin cfg0.N)
    (h : ∀ r : Fin 2048, (outsAt0 m c t.val t.isLt).2.1 (ix2 r (0 : Fin 1)) = ((f (tileRow t r) : ℝ) : EReal)) :
    (dats m 0 c).flushed 3 t = ((cfg0.win 3).blk t).view.read (Elt Ideal) (colOf f) := by
  show (cfg0.win 3).cut (grid0.coords t) ((dats m 0 c).after 3 t) = _
  rw [after0_3]
  refine block_ext _ _ (fun r => ?_)
  show (outsAt0 m c t.val t.isLt).2.1 (ix2 r (0 : Fin 1)) = colOf f (((cfg0.win 3).blk t).view.emb (ix2 r (0 : Fin 1)))
  refine (h r).trans ?_
  have e : tileRow t r = (((cfg0.win 3).blk t).view.emb (ix2 r (0 : Fin 1))) 0 := Fin.ext (by
    show 2048 * (t.val / 50) + r.val = win0_3.index t (0 : Fin 2) * 2048 + 1 * r.val
    rw [(flush_idx_facts t).2.2.1]; omega)
  exact congrArg (fun b => ((f b : ℝ) : EReal)) e

theorem mem_blk3 (t : Fin cfg0.N) (i : S4096x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v1_1).slice (win0_3.rect t)).set ↔ _
  rw [View.set_slice_whole, Rect.mem_set_unit]
  exact Iff.rfl

theorem cover3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hv := lastPt_val ⟨(i 0).val / 2048, by omega⟩
  have hq : (⟨(i 0).val / 2048, by omega⟩ : Fin 2).val = (i 0).val / 2048 := rfl
  obtain ⟨-, -, e0, e1, -⟩ := flush_idx_facts (lastPt ⟨(i 0).val / 2048, by omega⟩)
  refine ⟨lastPt ⟨(i 0).val / 2048, by omega⟩, (flush0_3 _).mpr (by omega), ?_⟩
  rw [mem_blk3]
  intro a
  match a with
  | ⟨0, _⟩ =>
    show win0_3.index _ (0 : Fin 2) * 2048 ≤ (i 0).val ∧ (i 0).val < win0_3.index _ (0 : Fin 2) * 2048 + 2048
    rw [e0]; omega
  | ⟨1, _⟩ =>
    show win0_3.index _ (1 : Fin 2) * 1 ≤ (i 1).val ∧ (i 1).val < win0_3.index _ (1 : Fin 2) * 1 + 1
    rw [e1]; omega

theorem final3_of (c : Dev nD) (f : Fin 4096 → ℝ)
    (h : ∀ t : Fin cfg0.N, t.val % 50 = 49 → ∀ r : Fin 2048,
      (outsAt0 m c t.val t.isLt).2.1 (ix2 r (0 : Fin 1)) = ((f (tileRow t r) : ℝ) : EReal)) :
    (dats m 0 c).arrAt 3 cfg0.N = colOf f :=
  (dats m 0 c).arrAt_eq_of_cover 3 (colOf f) (fun t hf => flushed3_of m c f t (h t ((flush0_3 t).mp hf))) cover3

theorem flushed4_of (c : Dev nD) (f : Fin 4096 → ℝ) (t : Fin cfg0.N)
    (h : ∀ r : Fin 2048, (outsAt0 m c t.val t.isLt).2.2.1 (ix2 r (0 : Fin 1)) = ((f (tileRow t r) : ℝ) : EReal)) :
    (dats m 0 c).flushed 4 t = ((cfg0.win 4).blk t).view.read (Elt Ideal) (colOf f) := by
  show (cfg0.win 4).cut (grid0.coords t) ((dats m 0 c).after 4 t) = _
  rw [after0_4]
  refine block_ext _ _ (fun r => ?_)
  show (outsAt0 m c t.val t.isLt).2.2.1 (ix2 r (0 : Fin 1)) = colOf f (((cfg0.win 4).blk t).view.emb (ix2 r (0 : Fin 1)))
  refine (h r).trans ?_
  have e : tileRow t r = (((cfg0.win 4).blk t).view.emb (ix2 r (0 : Fin 1))) 0 := Fin.ext (by
    show 2048 * (t.val / 50) + r.val = win0_4.index t (0 : Fin 2) * 2048 + 1 * r.val
    rw [(flush_idx_facts t).2.2.2.2.1]; omega)
  exact congrArg (fun b => ((f b : ℝ) : EReal)) e

theorem mem_blk4 (t : Fin cfg0.N) (i : S4096x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v1_2).slice (win0_4.rect t)).set ↔ _
  rw [View.set_slice_whole, Rect.mem_set_unit]
  exact Iff.rfl

theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hv := lastPt_val ⟨(i 0).val / 2048, by omega⟩
  have hq : (⟨(i 0).val / 2048, by omega⟩ : Fin 2).val = (i 0).val / 2048 := rfl
  obtain ⟨-, -, -, -, e0, e1⟩ := flush_idx_facts (lastPt ⟨(i 0).val / 2048, by omega⟩)
  refine ⟨lastPt ⟨(i 0).val / 2048, by omega⟩, (flush0_4 _).mpr (by omega), ?_⟩
  rw [mem_blk4]
  intro a
  match a with
  | ⟨0, _⟩ =>
    show win0_4.index _ (0 : Fin 2) * 2048 ≤ (i 0).val ∧ (i 0).val < win0_4.index _ (0 : Fin 2) * 2048 + 2048
    rw [e0]; omega
  | ⟨1, _⟩ =>
    show win0_4.index _ (1 : Fin 2) * 1 ≤ (i 1).val ∧ (i 1).val < win0_4.index _ (1 : Fin 2) * 1 + 1
    rw [e1]; omega

theorem final4_of (c : Dev nD) (f : Fin 4096 → ℝ)
    (h : ∀ t : Fin cfg0.N, t.val % 50 = 49 → ∀ r : Fin 2048,
      (outsAt0 m c t.val t.isLt).2.2.1 (ix2 r (0 : Fin 1)) = ((f (tileRow t r) : ℝ) : EReal)) :
    (dats m 0 c).arrAt 4 cfg0.N = colOf f :=
  (dats m 0 c).arrAt_eq_of_cover 4 (colOf f) (fun t hf => flushed4_of m c f t (h t ((flush0_4 t).mp hf))) cover4

theorem final (c : Dev nD)
    (hlast : ∀ (t : Fin cfg0.N), t.val % 50 = 49 → ∀ r : Fin 2048,
      (outsAt0 m c t.val t.isLt).1 (ValueIdx.ix2 r (0 : Fin 1))
        = ((Cert.Spec.rowMax (m ((c.tc : Thread nD τ).loc main_arg0)) (m ((c.tc : Thread nD τ).loc main_arg1)) (tileRow t r) : ℝ) : EReal)
      ∧ (outsAt0 m c t.val t.isLt).2.1 (ValueIdx.ix2 r (0 : Fin 1))
        = ((Real.log (Cert.Spec.sumExp (m ((c.tc : Thread nD τ).loc main_arg0)) (m ((c.tc : Thread nD τ).loc main_arg1)) (tileRow t r)) : ℝ) : EReal)
      ∧ (outsAt0 m c t.val t.isLt).2.2.1 (ValueIdx.ix2 r (0 : Fin 1))
        = ((Cert.Spec.rowSum (m ((c.tc : Thread nD τ).loc main_arg0)) (m ((c.tc : Thread nD τ).loc main_arg1)) (tileRow t r) : ℝ) : EReal))
    (b : Fin 4096) :
    ((dats m 0 c).arrAt 2 cfg0.N : S4096x1.Idx → EReal) (ValueIdx.ix2 b (0 : Fin 1))
      = ((Cert.Spec.rowMax (m ((c.tc : Thread nD τ).loc main_arg0)) (m ((c.tc : Thread nD τ).loc main_arg1)) b : ℝ) : EReal)
    ∧ ((dats m 0 c).arrAt 3 cfg0.N : S4096x1.Idx → EReal) (ValueIdx.ix2 b (0 : Fin 1))
      = ((Real.log (Cert.Spec.sumExp (m ((c.tc : Thread nD τ).loc main_arg0)) (m ((c.tc : Thread nD τ).loc main_arg1)) b) : ℝ) : EReal)
    ∧ ((dats m 0 c).arrAt 4 cfg0.N : S4096x1.Idx → EReal) (ValueIdx.ix2 b (0 : Fin 1))
      = ((Cert.Spec.rowSum (m ((c.tc : Thread nD τ).loc main_arg0)) (m ((c.tc : Thread nD τ).loc main_arg1)) b : ℝ) : EReal) :=
  ⟨congrFun (final2_of m c (fun b => Cert.Spec.rowMax (m ((c.tc : Thread nD τ).loc main_arg0)) (m ((c.tc : Thread nD τ).loc main_arg1)) b)
      (fun t h49 r => (hlast t h49 r).1)) (ix2 b (0 : Fin 1)),
   congrFun (final3_of m c (fun b => Real.log (Cert.Spec.sumExp (m ((c.tc : Thread nD τ).loc main_arg0)) (m ((c.tc : Thread nD τ).loc main_arg1)) b))
      (fun t h49 r => (hlast t h49 r).2.1)) (ix2 b (0 : Fin 1)),
   congrFun (final4_of m c (fun b => Cert.Spec.rowSum (m ((c.tc : Thread nD τ).loc main_arg0)) (m ((c.tc : Thread nD τ).loc main_arg1)) b)
      (fun t h49 r => (hlast t h49 r).2.2)) (ix2 b (0 : Fin 1))⟩

end Cert.KernelIdeal.HandVal

end
-- ==== Proof.RefOps.lean ====
/- The reference program's 118 host operations, in order, as 13 lists: @main's own operations between two
   calls, and each call's operations (the callee's printed lines at that call's record and operands).
   A table only: every entry is the operation of one printed line of the program. -/
import proofs.«424783_j8701603741901_3_alg».proof.ReferenceIdeal
import proofs.«424783_j8701603741901_3_alg».proof.Proof.Gen.ReferenceIdeal

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- 2 operations: @main's own operations. -/
abbrev ops0 : List (HloOp τ sig (Elt F)) :=
  [ StableHlo.binary main_arg0 main_arg1 main_v0 ((fun l r => Host.dotGeneral dot_S4096x2048_S32000x2048_S4096x32000_1_1_0_0_n_n none l r) : (⟨S4096x2048, .f32⟩ : BufTy).Contents (Elt F) → (⟨S32000x2048, .f32⟩ : BufTy).Contents (Elt F) → (⟨S4096x32000, .f32⟩ : BufTy).Contents (Elt F)),
    StableHlo.unary main_v0 main_v1 ((extractStridedSlice S2048x32000 ![0, 0] · slices_S4096x32000_S2048x32000_0_0) : (⟨S4096x32000, .f32⟩ : BufTy).Contents (Elt F) → (⟨S2048x32000, .f32⟩ : BufTy).Contents (Elt F)) ]

/-- 15 operations: the call of @log_softmax (record main_call0). -/
abbrev ops1 : List (HloOp τ sig (Elt F)) :=
  [ StableHlo.TRef.nullary main_call0.cst (constant S_ .f32 0xFF800000#32),
    StableHlo.TRef.binary (.of main_v1 : StableHlo.TRef sig ⟨S2048x32000, .f32⟩) main_call0.cst main_call0.v0 (fun x v => Host.reduce FloatOps.maximumf x v reducesTo_S2048x32000_S2048_d1 h_S_),
    StableHlo.TRef.nullary main_call0.cst_0 (constant S_ .f32 0xFF800000#32),
    StableHlo.TRef.unary main_call0.cst_0 main_call0.v1 (broadcastInDim S2048 ![] bcast_S_S2048),
    StableHlo.TRef.binary main_call0.v1 main_call0.v0 main_call0.v2 maximumf,
    StableHlo.TRef.unary main_call0.v2 main_call0.v3 (broadcastInDim S2048x1 ![0] bcast_S2048_S2048x1_0),
    StableHlo.TRef.unary main_call0.v3 main_call0.v4 (broadcastInDim S2048x32000 ![0, 1] bcast_S2048x1_S2048x32000_0_1),
    StableHlo.TRef.binary (.of main_v1 : StableHlo.TRef sig ⟨S2048x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S2048x32000_S2048_d1 h_S_),
    StableHlo.TRef.unary main_call0.v7 main_call0.v8 (broadcastInDim S2048x1 ![0] bcast_S2048_S2048x1_0),
    StableHlo.TRef.unary main_call0.v8 main_call0.v9 Host.log,
    StableHlo.TRef.unary main_call0.v9 main_call0.v10 (broadcastInDim S2048x32000 ![0, 1] bcast_S2048x1_S2048x32000_0_1),
    StableHlo.TRef.binary main_call0.v5 main_call0.v10 main_call0.v11 subf ]

/-- 5 operations: @main's own operations. -/
abbrev ops2 : List (HloOp τ sig (Elt F)) :=
  [ StableHlo.unary main_arg2 main_v3 ((extractStridedSlice S2048 ![0] · slices_S4096_S2048_0) : (⟨S4096, .i32⟩ : BufTy).Contents (Elt F) → (⟨S2048, .i32⟩ : BufTy).Contents (Elt F)),
    StableHlo.nullary main_c (constantI S_ 32 4294967196#32),
    StableHlo.unary main_c main_v4 (broadcastInDim S2048 ![] bcast_S_S2048 : (⟨S_, .i32⟩ : BufTy).Contents (Elt F) → (⟨S2048, .i32⟩ : BufTy).Contents (Elt F)),
    StableHlo.binary main_v3 main_v4 main_v5 (cmpi .ne : (⟨S2048, .i32⟩ : BufTy).Contents (Elt F) → (⟨S2048, .i32⟩ : BufTy).Contents (Elt F) → (⟨S2048, .i1⟩ : BufTy).Contents (Elt F)),
    StableHlo.nullary main_c_0 (constantI S_ 32 0#32) ]

/-- 3 operations: the call of @where (record main_call1). -/
abbrev ops3 : List (HloOp τ sig (Elt F)) :=
  [ StableHlo.TRef.unary (.of main_c_0 : StableHlo.TRef sig ⟨S_, .i32⟩) main_call1.v0 id,
    StableHlo.TRef.unary main_call1.v0 main_call1.v1 (broadcastInDim S2048 ![] bcast_S_S2048),
    StableHlo.TRef.ternary (.of main_v5 : StableHlo.TRef sig ⟨S2048, .i1⟩) (.of main_v3 : StableHlo.TRef sig ⟨S2048, .i32⟩) main_call1.v1 main_call1.v2 select ]

/-- 1 operations: @main's own operations. -/
abbrev ops4 : List (HloOp τ sig (Elt F)) :=
  [ StableHlo.unary main_v6 main_v7 (broadcastInDim S2048x1 ![0] bcast_S2048_S2048x1_0 : (⟨S2048, .i32⟩ : BufTy).Contents (Elt F) → (⟨S2048x1, .i32⟩ : BufTy).Contents (Elt F)) ]

/-- 22 operations: the call of @take_along_axis (record main_call2). -/
abbrev ops5 : List (HloOp τ sig (Elt F)) :=
  [ StableHlo.TRef.nullary main_call2.c (constantI S_ 32 0#32),
    StableHlo.TRef.unary main_call2.c main_call2.v0 (broadcastInDim S2048x1 ![] bcast_S_S2048x1),
    StableHlo.TRef.binary (.of main_v7 : StableHlo.TRef sig ⟨S2048x1, .i32⟩) main_call2.v0 main_call2.v1 (cmpi .slt),
    StableHlo.TRef.nullary main_call2.c_0 (constantI S_ 32 32000#32),
    StableHlo.TRef.unary main_call2.c_0 main_call2.v2 (broadcastInDim S2048x1 ![] bcast_S_S2048x1),
    StableHlo.TRef.binary (.of main_v7 : StableHlo.TRef sig ⟨S2048x1, .i32⟩) main_call2.v2 main_call2.v3 addi,
    StableHlo.TRef.ternary main_call2.v1 main_call2.v3 (.of main_v7 : StableHlo.TRef sig ⟨S2048x1, .i32⟩) main_call2.v4 select,
    StableHlo.TRef.reshape main_call2.v4 main_call2.v5 rfl shapeCasts_S2048x1_S2048x1x1,
    StableHlo.TRef.nullary main_call2.c_1 (constantI S1 32 31999#32),
    StableHlo.TRef.nullary main_call2.c_2 (constantI S_ 32 0#32),
    StableHlo.TRef.unary main_call2.c_2 main_call2.v6 (broadcastInDim S2048x1x1 ![] bcast_S_S2048x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S2048x1x1 ![0, 1, 2] bcast_S1x1x1_S2048x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S2048x1x1_S2048x1_d2 h_S_),
    StableHlo.TRef.binary (.of main_v2 : StableHlo.TRef sig ⟨S2048x32000, .f32⟩) main_call2.v5 main_call2.v13 (fun x i => Host.gather gather_S2048x32000_S2048x1x1_S2048x1_n_1_0_0_1_2_11 x i),
    StableHlo.TRef.nullary main_call2.cst (constant S_ .f32 0x7FC00000#32),
    StableHlo.TRef.unary main_call2.cst main_call2.v14 (broadcastInDim S2048x1 ![] bcast_S_S2048x1),
    StableHlo.TRef.ternary main_call2.v12 main_call2.v13 main_call2.v14 main_call2.v15 select ]

/-- 3 operations: @main's own operations. -/
abbrev ops6 : List (HloOp τ sig (Elt F)) :=
  [ StableHlo.reshape main_v8 main_v9 rfl shapeCasts_S2048x1_S2048,
    StableHlo.unary main_v9 main_v10 (Host.negf : (⟨S2048, .f32⟩ : BufTy).Contents (Elt F) → (⟨S2048, .f32⟩ : BufTy).Contents (Elt F)),
    StableHlo.nullary main_cst (constant S_ .f32 0x00000000#32) ]

/-- 3 operations: the call of @where_0 (record main_call3). -/
abbrev ops7 : List (HloOp τ sig (Elt F)) :=
  [ StableHlo.TRef.unary (.of main_cst : StableHlo.TRef sig ⟨S_, .f32⟩) main_call3.v0 id,
    StableHlo.TRef.unary main_call3.v0 main_call3.v1 (broadcastInDim S2048 ![] bcast_S_S2048),
    StableHlo.TRef.ternary (.of main_v5 : StableHlo.TRef sig ⟨S2048, .i1⟩) (.of main_v10 : StableHlo.TRef sig ⟨S2048, .f32⟩) main_call3.v1 main_call3.v2 select ]

/-- 9 operations: @main's own operations. -/
abbrev ops8 : List (HloOp τ sig (Elt F)) :=
  [ StableHlo.nullary main_cst_1 (constant S_ .f32 0x00000000#32),
    StableHlo.binary main_v11 main_cst_1 main_v12 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.unary main_v5 main_v13 ((extui 32 · natLt_1_32) : (⟨S2048, .i1⟩ : BufTy).Contents (Elt F) → (⟨S2048, .i32⟩ : BufTy).Contents (Elt F)),
    StableHlo.nullary main_c_2 (constantI S_ 32 0#32),
    StableHlo.binary main_v13 main_c_2 main_v14 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    StableHlo.nullary main_c_3 (constantI S_ 32 1#32),
    StableHlo.binary main_v14 main_c_3 main_v15 (maxsi : (⟨S_, .i32⟩ : BufTy).Contents (Elt F) → (⟨S_, .i32⟩ : BufTy).Contents (Elt F) → (⟨S_, .i32⟩ : BufTy).Contents (Elt F)),
    StableHlo.unary main_v15 main_v16 (sitofp .f32 : (⟨S_, .i32⟩ : BufTy).Contents (Elt F) → (⟨S_, .f32⟩ : BufTy).Contents (Elt F)),
    StableHlo.binary main_v12 main_v16 main_v17 (Host.divf : (⟨S_, .f32⟩ : BufTy).Contents (Elt F) → (⟨S_, .f32⟩ : BufTy).Contents (Elt F) → (⟨S_, .f32⟩ : BufTy).Contents (Elt F)) ]

/-- 15 operations: the call of @log_softmax_1 (record main_call4). -/
abbrev ops9 : List (HloOp τ sig (Elt F)) :=
  [ StableHlo.TRef.nullary main_call4.cst (constant S_ .f32 0xFF800000#32),
    StableHlo.TRef.binary (.of main_v0 : StableHlo.TRef sig ⟨S4096x32000, .f32⟩) main_call4.cst main_call4.v0 (fun x v => Host.reduce FloatOps.maximumf x v reducesTo_S4096x32000_S4096_d1 h_S_),
    StableHlo.TRef.nullary main_call4.cst_0 (constant S_ .f32 0xFF800000#32),
    StableHlo.TRef.unary main_call4.cst_0 main_call4.v1 (broadcastInDim S4096 ![] bcast_S_S4096),
    StableHlo.TRef.binary main_call4.v1 main_call4.v0 main_call4.v2 maximumf,
    StableHlo.TRef.unary main_call4.v2 main_call4.v3 (broadcastInDim S4096x1 ![0] bcast_S4096_S4096x1_0),
    StableHlo.TRef.unary main_call4.v3 main_call4.v4 (broadcastInDim S4096x32000 ![0, 1] bcast_S4096x1_S4096x32000_0_1),
    StableHlo.TRef.binary (.of main_v0 : StableHlo.TRef sig ⟨S4096x32000, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S4096x32000_S4096_d1 h_S_),
    StableHlo.TRef.unary main_call4.v7 main_call4.v8 (broadcastInDim S4096x1 ![0] bcast_S4096_S4096x1_0),
    StableHlo.TRef.unary main_call4.v8 main_call4.v9 Host.log,
    StableHlo.TRef.unary main_call4.v9 main_call4.v10 (broadcastInDim S4096x32000 ![0, 1] bcast_S4096x1_S4096x32000_0_1),
    StableHlo.TRef.binary main_call4.v5 main_call4.v10 main_call4.v11 subf ]

/-- 16 operations: @main's own operations. -/
abbrev ops10 : List (HloOp τ sig (Elt F)) :=
  [ StableHlo.nullary main_cst_4 (constant S_ .f32 0x00000000#32),
    StableHlo.binary main_v18 main_cst_4 main_v19 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    StableHlo.nullary main_cst_5 (constant S_ .f32 0x46FA0000#32),
    StableHlo.unary main_cst_5 main_v20 (broadcastInDim S4096 ![] bcast_S_S4096 : (⟨S_, .f32⟩ : BufTy).Contents (Elt F) → (⟨S4096, .f32⟩ : BufTy).Contents (Elt F)),
    StableHlo.binary main_v19 main_v20 main_v21 (Host.divf : (⟨S4096, .f32⟩ : BufTy).Contents (Elt F) → (⟨S4096, .f32⟩ : BufTy).Contents (Elt F) → (⟨S4096, .f32⟩ : BufTy).Contents (Elt F)),
    StableHlo.unary main_v21 main_v22 ((extractStridedSlice S2048 ![0] · slices_S4096_S2048_0) : (⟨S4096, .f32⟩ : BufTy).Contents (Elt F) → (⟨S2048, .f32⟩ : BufTy).Contents (Elt F)),
    StableHlo.unary main_v21 main_v23 ((extractStridedSlice S2048 ![2048] · slices_S4096_S2048_2048) : (⟨S4096, .f32⟩ : BufTy).Contents (Elt F) → (⟨S2048, .f32⟩ : BufTy).Contents (Elt F)),
    StableHlo.binary main_v22 main_v23 main_v24 (subf : (⟨S2048, .f32⟩ : BufTy).Contents (Elt F) → (⟨S2048, .f32⟩ : BufTy).Contents (Elt F) → (⟨S2048, .f32⟩ : BufTy).Contents (Elt F)),
    StableHlo.unary main_v22 main_v25 (Host.exp : (⟨S2048, .f32⟩ : BufTy).Contents (Elt F) → (⟨S2048, .f32⟩ : BufTy).Contents (Elt F)),
    StableHlo.unary main_v25 main_v26 (Host.negf : (⟨S2048, .f32⟩ : BufTy).Contents (Elt F) → (⟨S2048, .f32⟩ : BufTy).Contents (Elt F)),
    StableHlo.unary main_v26 main_v27 (Host.log1p : (⟨S2048, .f32⟩ : BufTy).Contents (Elt F) → (⟨S2048, .f32⟩ : BufTy).Contents (Elt F)),
    StableHlo.unary main_v23 main_v28 (Host.exp : (⟨S2048, .f32⟩ : BufTy).Contents (Elt F) → (⟨S2048, .f32⟩ : BufTy).Contents (Elt F)),
    StableHlo.unary main_v28 main_v29 (Host.negf : (⟨S2048, .f32⟩ : BufTy).Contents (Elt F) → (⟨S2048, .f32⟩ : BufTy).Contents (Elt F)),
    StableHlo.unary main_v29 main_v30 (Host.log1p : (⟨S2048, .f32⟩ : BufTy).Contents (Elt F) → (⟨S2048, .f32⟩ : BufTy).Contents (Elt F)),
    StableHlo.binary main_v27 main_v30 main_v31 (subf : (⟨S2048, .f32⟩ : BufTy).Contents (Elt F) → (⟨S2048, .f32⟩ : BufTy).Contents (Elt F) → (⟨S2048, .f32⟩ : BufTy).Contents (Elt F)),
    StableHlo.binary main_v24 main_v31 main_v32 (subf : (⟨S2048, .f32⟩ : BufTy).Contents (Elt F) → (⟨S2048, .f32⟩ : BufTy).Contents (Elt F) → (⟨S2048, .f32⟩ : BufTy).Contents (Elt F)) ]

/-- 16 operations: the call of @log_sigmoid (record main_call5). -/
abbrev ops11 : List (HloOp τ sig (Elt F)) :=
  [ StableHlo.TRef.unary (.of main_v32 : StableHlo.TRef sig ⟨S2048, .f32⟩) main_call5.v0 Host.negf,
    StableHlo.TRef.nullary main_call5.call0.cst (constant S_ .f32 0x00000000#32),
    StableHlo.TRef.unary main_call5.call0.cst main_call5.call0.v0 (broadcastInDim S2048 ![] bcast_S_S2048),
    StableHlo.TRef.binary main_call5.v0 main_call5.call0.v0 main_call5.call0.v1 maximumf,
    StableHlo.TRef.unary main_call5.call0.cst main_call5.call0.v2 (broadcastInDim S2048 ![] bcast_S_S2048),
    StableHlo.TRef.binary main_call5.v0 main_call5.call0.v2 main_call5.call0.v3 subf,
    StableHlo.TRef.binary main_call5.call0.v3 main_call5.call0.v3 main_call5.call0.v4 (cmpf .une),
    StableHlo.TRef.unary main_call5.call0.cst main_call5.call0.v5 (broadcastInDim S2048 ![] bcast_S_S2048),
    StableHlo.TRef.binary main_call5.v0 main_call5.call0.v5 main_call5.call0.v6 addf,
    StableHlo.TRef.unary main_call5.call0.v3 main_call5.call0.v7 Host.absf,
    StableHlo.TRef.unary main_call5.call0.v7 main_call5.call0.v8 Host.negf,
    StableHlo.TRef.unary main_call5.call0.v8 main_call5.call0.v9 Host.exp,
    StableHlo.TRef.unary main_call5.call0.v9 main_call5.call0.v10 Host.log1p,
    StableHlo.TRef.binary main_call5.call0.v1 main_call5.call0.v10 main_call5.call0.v11 addf,
    StableHlo.TRef.ternary main_call5.call0.v4 main_call5.call0.v6 main_call5.call0.v11 main_call5.call0.v12 select,
    StableHlo.TRef.unary main_call5.call0.v12 main_call5.v2 Host.negf ]

/-- 8 operations: @main's own operations. -/
abbrev ops12 : List (HloOp τ sig (Elt F)) :=
  [ StableHlo.nullary main_cst_6 (constant S_ .f32 0x3DCCCCCD#32),
    StableHlo.unary main_cst_6 main_v34 (broadcastInDim S2048 ![] bcast_S_S2048 : (⟨S_, .f32⟩ : BufTy).Contents (Elt F) → (⟨S2048, .f32⟩ : BufTy).Contents (Elt F)),
    StableHlo.binary main_v34 main_v33 main_v35 (mulf : (⟨S2048, .f32⟩ : BufTy).Contents (Elt F) → (⟨S2048, .f32⟩ : BufTy).Contents (Elt F) → (⟨S2048, .f32⟩ : BufTy).Contents (Elt F)),
    StableHlo.nullary main_cst_7 (constant S_ .f32 0x00000000#32),
    StableHlo.binary main_v35 main_cst_7 main_v36 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_8 (constant S_ .f32 0x45000000#32),
    StableHlo.binary main_v36 main_cst_8 main_v37 (Host.divf : (⟨S_, .f32⟩ : BufTy).Contents (Elt F) → (⟨S_, .f32⟩ : BufTy).Contents (Elt F) → (⟨S_, .f32⟩ : BufTy).Contents (Elt F)),
    StableHlo.binary main_v17 main_v37 main_v38 (subf : (⟨S_, .f32⟩ : BufTy).Contents (Elt F) → (⟨S_, .f32⟩ : BufTy).Contents (Elt F) → (⟨S_, .f32⟩ : BufTy).Contents (Elt F)) ]

end Cert.ReferenceIdeal.RefOps

end
-- ==== Proof.RefRun.lean ====
import proofs.«424783_j8701603741901_3_alg».proof.Proof.RefOps
import Idealize.ShloMosaic.PureOps.Ideal
import Idealize.ShloMosaic.Lib.StableHlo.Run
import Idealize.ShloMosaic.Lib.StableHlo.RunLoop
import Idealize.ShloMosaic.Lib.Pipeline.Regions

noncomputable section

namespace Cert.ReferenceIdeal.RefRun

open Cert.ReferenceIdeal Cert.ReferenceIdeal.Gen Cert.ReferenceIdeal.RefOps Idealize.ShloMosaic Idealize.ShloMosaic.TcCoe
  Idealize.SL.Sem Idealize.ShloMosaic.StableHlo

variable {F : FTy → Type} [FloatOps F]

abbrev stretches : List (List (HloOp τ sig (Elt F))) :=
  [ops0, ops1, ops2, ops3, ops4, ops5, ops6, ops7, ops8, ops9, ops10, ops11, ops12]

abbrev ops : List (HloOp τ sig (Elt F)) := (stretches (F := F)).flatten

theorem chain_seq {nD : Nat} {τ : Topo} {sig : RefSig} {Val : EltTy → Type} {Λ : Labels} :
    ∀ L : List (List (HloOp τ sig Val)),
      (Pipeline.chain (L.map fun l => (seq l : Prog (TpuEff nD τ sig Val Λ .tc) PUnit))) = seq L.flatten
  | [] => rfl
  | l :: L => by
    rw [List.map_cons, Pipeline.chain_cons, List.flatten_cons, seq_append, chain_seq L]

theorem main_chain (c : Dev nD) : main (F := F) c = (Pipeline.chain
    [seq ops0, seq ops1, seq ops2, seq ops3, seq ops4, seq ops5, seq ops6, seq ops7, seq ops8, seq ops9, seq ops10,
      seq ops11, seq ops12] :
    Prog (TpuEff nD τ sig (Elt F) (Pipeline.Sig Λ₀ (Fin 0) fun p => (pcfgs (F := F) p).Adm) .tc) PUnit) := by
  chain_rfl

theorem main_eq (c : Dev nD) : main (F := F) c = seq (ops (F := F)) :=
  (main_chain c).trans (chain_seq (stretches (F := F)))

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., unary_bufs_sub ..⟩
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩
theorem ops2_sub : (ops2 : List (HloOp τ sig (Elt F))).Forall fun op => op.bufs ⊆ tcRefs τ sig :=
  ⟨unary_bufs_sub .., nullary_bufs_sub .., unary_bufs_sub .., binary_bufs_sub .., nullary_bufs_sub ..⟩
theorem ops3_sub : (ops3 : List (HloOp τ sig (Elt F))).Forall fun op => op.bufs ⊆ tcRefs τ sig :=
  ⟨unary_bufs_sub .., unary_bufs_sub .., ternary_bufs_sub ..⟩
theorem ops4_sub : (ops4 : List (HloOp τ sig (Elt F))).Forall fun op => op.bufs ⊆ tcRefs τ sig :=
  unary_bufs_sub ..
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩
theorem ops6_sub : (ops6 : List (HloOp τ sig (Elt F))).Forall fun op => op.bufs ⊆ tcRefs τ sig :=
  ⟨reshape_bufs_sub .., unary_bufs_sub .., nullary_bufs_sub ..⟩
theorem ops7_sub : (ops7 : List (HloOp τ sig (Elt F))).Forall fun op => op.bufs ⊆ tcRefs τ sig :=
  ⟨unary_bufs_sub .., unary_bufs_sub .., ternary_bufs_sub ..⟩
theorem ops8_sub : (ops8 : List (HloOp τ sig (Elt F))).Forall fun op => op.bufs ⊆ tcRefs τ sig :=
  ⟨nullary_bufs_sub .., binary_bufs_sub .., unary_bufs_sub .., nullary_bufs_sub .., binary_bufs_sub .., nullary_bufs_sub ..,
    binary_bufs_sub .., unary_bufs_sub .., binary_bufs_sub ..⟩
theorem ops9_sub : (ops9 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩
theorem ops10_sub : (ops10 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., unary_bufs_sub .., unary_bufs_sub .., unary_bufs_sub ..,
    unary_bufs_sub .., unary_bufs_sub .., binary_bufs_sub .., binary_bufs_sub ..⟩
theorem ops11_sub : (ops11 : List (HloOp τ sig (Elt F))).Forall fun op => op.bufs ⊆ tcRefs τ sig :=
  ⟨unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..⟩
theorem ops12_sub : (ops12 : List (HloOp τ sig (Elt F))).Forall fun op => op.bufs ⊆ tcRefs τ sig :=
  ⟨nullary_bufs_sub .., unary_bufs_sub .., binary_bufs_sub .., nullary_bufs_sub .., binary_bufs_sub .., nullary_bufs_sub ..,
    binary_bufs_sub .., binary_bufs_sub ..⟩

theorem plain : Plain (stretches (F := F)) :=
  Plain.cons ops0_sub <| Plain.cons ops1_sub <| Plain.cons ops2_sub <| Plain.cons ops3_sub <| Plain.cons ops4_sub <|
  Plain.cons ops5_sub <| Plain.cons ops6_sub <| Plain.cons ops7_sub <| Plain.cons ops8_sub <| Plain.cons ops9_sub <|
  Plain.cons ops10_sub <| Plain.cons ops11_sub <| Plain.cons ops12_sub Plain.nil

theorem ops_sub : (ops : List (HloOp τ sig (Elt F))).Forall fun op => op.bufs ⊆ tcRefs τ sig :=
  List.forall_iff_forall_mem.mpr fun op hop =>
    let ⟨l, hl, ho⟩ := List.mem_flatten.mp hop
    (plain l hl).1 op ho

theorem ops_fresh : ∀ op ∈ (ops : List (HloOp τ sig (Elt F))), op.fresh = ∅ := fun op hop =>
  let ⟨l, hl, ho⟩ := List.mem_flatten.mp hop
  (plain l hl).2 op ho

theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

theorem run_after (m : (ℓ : Loc nD τ sig) → Buf (Elt Ideal) ℓ) (ρ : Dev nD → PrngReg) :
    θ_run (defs (F := Ideal)) (onTc (τ := τ) (main (F := Ideal))) ⟨m, fun _ => 0, ρ⟩ fun r => ∀ (d : Dev nD) (b : Ref sig .tc),
      r.2.mem ((d.tc : Thread nD τ).loc b) = StableHlo.after (List.flatten [RefOps.ops0, RefOps.ops1, RefOps.ops2, RefOps.ops3, RefOps.ops4, RefOps.ops5, RefOps.ops6, RefOps.ops7, RefOps.ops8, RefOps.ops9, RefOps.ops10, RefOps.ops11, RefOps.ops12]) (StableHlo.launchContents m d) (Proc.devRef .tc b) :=
  run_all m ρ

end Cert.ReferenceIdeal.RefRun

end
-- ==== Proof.RefOut.lean ====
import proofs.«424783_j8701603741901_3_alg».proof.ReferenceIdeal
import proofs.«424783_j8701603741901_3_alg».proof.Proof.Gen.ReferenceIdeal
import proofs.«424783_j8701603741901_3_alg».proof.Proof.Spec

noncomputable section

namespace Cert.ReferenceIdeal.RefOut

open Idealize.ShloMosaic
open Cert.ReferenceIdeal Cert.ReferenceIdeal.Facts₀

def refValid (y : IVec S4096 32) : IVec S2048 1 :=
  let v3 : IVec S2048 32 := extractStridedSlice S2048 ![0] y slices_S4096_S2048_0
  let c : IVec S_ 32 := constantI S_ 32 4294967196#32
  let v4 : IVec S2048 32 := broadcastInDim S2048 ![] bcast_S_S2048 c
  cmpi .ne v3 v4

def refNll (x : FVec Ideal S4096x2048 .f32) (W : FVec Ideal S32000x2048 .f32) (y : IVec S4096 32) :
    FVec Ideal S2048 .f32 :=

  let v0 : FVec Ideal S4096x32000 .f32 :=
    Host.dotGeneral dot_S4096x2048_S32000x2048_S4096x32000_1_1_0_0_n_n none x W
  let v1 : FVec Ideal S2048x32000 .f32 :=
    extractStridedSlice S2048x32000 ![0, 0] v0 slices_S4096x32000_S2048x32000_0_0

  let a_cst : FVec Ideal S_ .f32 := constant S_ .f32 0xFF800000#32
  let a_v0 : FVec Ideal S2048 .f32 := Host.reduce FloatOps.maximumf v1 a_cst reducesTo_S2048x32000_S2048_d1 h_S_
  let a_cst_0 : FVec Ideal S_ .f32 := constant S_ .f32 0xFF800000#32
  let a_v1 : FVec Ideal S2048 .f32 := broadcastInDim S2048 ![] bcast_S_S2048 a_cst_0
  let a_v2 : FVec Ideal S2048 .f32 := maximumf a_v1 a_v0
  let a_v3 : FVec Ideal S2048x1 .f32 := broadcastInDim S2048x1 ![0] bcast_S2048_S2048x1_0 a_v2
  let a_v4 : FVec Ideal S2048x32000 .f32 := broadcastInDim S2048x32000 ![0, 1] bcast_S2048x1_S2048x32000_0_1 a_v3
  let a_v5 : FVec Ideal S2048x32000 .f32 := subf v1 a_v4
  let a_v6 : FVec Ideal S2048x32000 .f32 := Host.exp a_v5
  let a_cst_1 : FVec Ideal S_ .f32 := constant S_ .f32 0x00000000#32
  let a_v7 : FVec Ideal S2048 .f32 := Host.reduceAdd a_v6 a_cst_1 reducesTo_S2048x32000_S2048_d1 h_S_
  let a_v8 : FVec Ideal S2048x1 .f32 := broadcastInDim S2048x1 ![0] bcast_S2048_S2048x1_0 a_v7
  let a_v9 : FVec Ideal S2048x1 .f32 := Host.log a_v8
  let a_v10 : FVec Ideal S2048x32000 .f32 := broadcastInDim S2048x32000 ![0, 1] bcast_S2048x1_S2048x32000_0_1 a_v9
  let v2 : FVec Ideal S2048x32000 .f32 := subf a_v5 a_v10

  let v3 : IVec S2048 32 := extractStridedSlice S2048 ![0] y slices_S4096_S2048_0
  let v5 : IVec S2048 1 := refValid y
  let c_0 : IVec S_ 32 := constantI S_ 32 0#32
  let b_v0 : IVec S_ 32 := id c_0
  let b_v1 : IVec S2048 32 := broadcastInDim S2048 ![] bcast_S_S2048 b_v0
  let v6 : IVec S2048 32 := select v5 v3 b_v1
  let v7 : IVec S2048x1 32 := broadcastInDim S2048x1 ![0] bcast_S2048_S2048x1_0 v6

  let t_c : IVec S_ 32 := constantI S_ 32 0#32
  let t_v0 : IVec S2048x1 32 := broadcastInDim S2048x1 ![] bcast_S_S2048x1 t_c
  let t_v1 : IVec S2048x1 1 := cmpi .slt v7 t_v0
  let t_c_0 : IVec S_ 32 := constantI S_ 32 32000#32
  let t_v2 : IVec S2048x1 32 := broadcastInDim S2048x1 ![] bcast_S_S2048x1 t_c_0
  let t_v3 : IVec S2048x1 32 := addi v7 t_v2
  let t_v4 : IVec S2048x1 32 := select t_v1 t_v3 v7
  let t_v5 : IVec S2048x1x1 32 := shapeCast S2048x1x1 t_v4 shapeCasts_S2048x1_S2048x1x1
  let t_c_1 : IVec S1 32 := constantI S1 32 31999#32
  let t_c_2 : IVec S_ 32 := constantI S_ 32 0#32
  let t_v6 : IVec S2048x1x1 32 := broadcastInDim S2048x1x1 ![] bcast_S_S2048x1x1 t_c_2
  let t_v7 : IVec S2048x1x1 1 := cmpi .sge t_v5 t_v6
  let t_v8 : IVec S1x1x1 32 := broadcastInDim S1x1x1 ![2] bcast_S1_S1x1x1_2 t_c_1
  let t_v9 : IVec S2048x1x1 32 := broadcastInDim S2048x1x1 ![0, 1, 2] bcast_S1x1x1_S2048x1x1_0_1_2 t_v8
  let t_v10 : IVec S2048x1x1 1 := cmpi .sle t_v5 t_v9
  let t_v11 : IVec S2048x1x1 1 := andi t_v7 t_v10
  let t_c_3 : IVec S_ 1 := constantI S_ 1 1#1
  let t_v12 : IVec S2048x1 1 := Host.reduce IntOp.andi t_v11 t_c_3 reducesTo_S2048x1x1_S2048x1_d2 h_S_
  let t_v13 : FVec Ideal S2048x1 .f32 := Host.gather gather_S2048x32000_S2048x1x1_S2048x1_n_1_0_0_1_2_11 v2 t_v5
  let t_cst : FVec Ideal S_ .f32 := constant S_ .f32 0x7FC00000#32
  let t_v14 : FVec Ideal S2048x1 .f32 := broadcastInDim S2048x1 ![] bcast_S_S2048x1 t_cst
  let v8 : FVec Ideal S2048x1 .f32 := select t_v12 t_v13 t_v14

  let v9 : FVec Ideal S2048 .f32 := shapeCast S2048 v8 shapeCasts_S2048x1_S2048
  let v10 : FVec Ideal S2048 .f32 := Host.negf v9
  let cst : FVec Ideal S_ .f32 := constant S_ .f32 0x00000000#32
  let d_v0 : FVec Ideal S_ .f32 := id cst
  let d_v1 : FVec Ideal S2048 .f32 := broadcastInDim S2048 ![] bcast_S_S2048 d_v0
  select v5 v10 d_v1

def refAlp (x : FVec Ideal S4096x2048 .f32) (W : FVec Ideal S32000x2048 .f32) : FVec Ideal S4096 .f32 :=
  let v0 : FVec Ideal S4096x32000 .f32 :=
    Host.dotGeneral dot_S4096x2048_S32000x2048_S4096x32000_1_1_0_0_n_n none x W

  let e_cst : FVec Ideal S_ .f32 := constant S_ .f32 0xFF800000#32
  let e_v0 : FVec Ideal S4096 .f32 := Host.reduce FloatOps.maximumf v0 e_cst reducesTo_S4096x32000_S4096_d1 h_S_
  let e_cst_0 : FVec Ideal S_ .f32 := constant S_ .f32 0xFF800000#32
  let e_v1 : FVec Ideal S4096 .f32 := broadcastInDim S4096 ![] bcast_S_S4096 e_cst_0
  let e_v2 : FVec Ideal S4096 .f32 := maximumf e_v1 e_v0
  let e_v3 : FVec Ideal S4096x1 .f32 := broadcastInDim S4096x1 ![0] bcast_S4096_S4096x1_0 e_v2
  let e_v4 : FVec Ideal S4096x32000 .f32 := broadcastInDim S4096x32000 ![0, 1] bcast_S4096x1_S4096x32000_0_1 e_v3
  let e_v5 : FVec Ideal S4096x32000 .f32 := subf v0 e_v4
  let e_v6 : FVec Ideal S4096x32000 .f32 := Host.exp e_v5
  let e_cst_1 : FVec Ideal S_ .f32 := constant S_ .f32 0x00000000#32
  let e_v7 : FVec Ideal S4096 .f32 := Host.reduceAdd e_v6 e_cst_1 reducesTo_S4096x32000_S4096_d1 h_S_
  let e_v8 : FVec Ideal S4096x1 .f32 := broadcastInDim S4096x1 ![0] bcast_S4096_S4096x1_0 e_v7
  let e_v9 : FVec Ideal S4096x1 .f32 := Host.log e_v8
  let e_v10 : FVec Ideal S4096x32000 .f32 := broadcastInDim S4096x32000 ![0, 1] bcast_S4096x1_S4096x32000_0_1 e_v9
  let v18 : FVec Ideal S4096x32000 .f32 := subf e_v5 e_v10

  let cst_4 : FVec Ideal S_ .f32 := constant S_ .f32 0x00000000#32
  let v19 : FVec Ideal S4096 .f32 := Host.reduceAdd v18 cst_4 reducesTo_S4096x32000_S4096_d1 h_S_
  let cst_5 : FVec Ideal S_ .f32 := constant S_ .f32 0x46FA0000#32
  let v20 : FVec Ideal S4096 .f32 := broadcastInDim S4096 ![] bcast_S_S4096 cst_5
  Host.divf v19 v20

def out (x : FVec Ideal S4096x2048 .f32) (W : FVec Ideal S32000x2048 .f32) (y : IVec S4096 32) :
    FVec Ideal S_ .f32 :=
  Cert.Spec.tail (refAlp x W) (refNll x W y) (refValid y)

end Cert.ReferenceIdeal.RefOut

end
-- ==== Proof.RefRunVal.lean ====
import proofs.«424783_j8701603741901_3_alg».proof.Proof.RefOps
import proofs.«424783_j8701603741901_3_alg».proof.Proof.RefOut
import Idealize.ShloMosaic.Lib.StableHlo.Run
import Idealize.ShloMosaic.Lib.Pipeline.Frame

set_option maxRecDepth 16384

noncomputable section

namespace Cert.ReferenceIdeal.RefRunVal

open Idealize.ShloMosaic Idealize.ShloMosaic.TcCoe Idealize.SL.Sem
open Cert.ReferenceIdeal Cert.ReferenceIdeal.RefOps

section Pieces

def logSoftH (v1 : FVec Ideal S2048x32000 .f32) : FVec Ideal S2048x32000 .f32 :=
  let a_cst : FVec Ideal S_ .f32 := constant S_ .f32 0xFF800000#32
  let a_v0 : FVec Ideal S2048 .f32 := Host.reduce FloatOps.maximumf v1 a_cst Facts₀.reducesTo_S2048x32000_S2048_d1 Facts₀.h_S_
  let a_cst_0 : FVec Ideal S_ .f32 := constant S_ .f32 0xFF800000#32
  let a_v1 : FVec Ideal S2048 .f32 := broadcastInDim S2048 ![] Facts₀.bcast_S_S2048 a_cst_0
  let a_v2 : FVec Ideal S2048 .f32 := maximumf a_v1 a_v0
  let a_v3 : FVec Ideal S2048x1 .f32 := broadcastInDim S2048x1 ![0] Facts₀.bcast_S2048_S2048x1_0 a_v2
  let a_v4 : FVec Ideal S2048x32000 .f32 := broadcastInDim S2048x32000 ![0, 1] Facts₀.bcast_S2048x1_S2048x32000_0_1 a_v3
  let a_v5 : FVec Ideal S2048x32000 .f32 := subf v1 a_v4
  let a_v6 : FVec Ideal S2048x32000 .f32 := Host.exp a_v5
  let a_cst_1 : FVec Ideal S_ .f32 := constant S_ .f32 0x00000000#32
  let a_v7 : FVec Ideal S2048 .f32 := Host.reduceAdd a_v6 a_cst_1 Facts₀.reducesTo_S2048x32000_S2048_d1 Facts₀.h_S_
  let a_v8 : FVec Ideal S2048x1 .f32 := broadcastInDim S2048x1 ![0] Facts₀.bcast_S2048_S2048x1_0 a_v7
  let a_v9 : FVec Ideal S2048x1 .f32 := Host.log a_v8
  let a_v10 : FVec Ideal S2048x32000 .f32 := broadcastInDim S2048x32000 ![0, 1] Facts₀.bcast_S2048x1_S2048x32000_0_1 a_v9
  subf a_v5 a_v10

def logSoftA (v0 : FVec Ideal S4096x32000 .f32) : FVec Ideal S4096x32000 .f32 :=
  let e_cst : FVec Ideal S_ .f32 := constant S_ .f32 0xFF800000#32
  let e_v0 : FVec Ideal S4096 .f32 := Host.reduce FloatOps.maximumf v0 e_cst Facts₀.reducesTo_S4096x32000_S4096_d1 Facts₀.h_S_
  let e_cst_0 : FVec Ideal S_ .f32 := constant S_ .f32 0xFF800000#32
  let e_v1 : FVec Ideal S4096 .f32 := broadcastInDim S4096 ![] Facts₀.bcast_S_S4096 e_cst_0
  let e_v2 : FVec Ideal S4096 .f32 := maximumf e_v1 e_v0
  let e_v3 : FVec Ideal S4096x1 .f32 := broadcastInDim S4096x1 ![0] Facts₀.bcast_S4096_S4096x1_0 e_v2
  let e_v4 : FVec Ideal S4096x32000 .f32 := broadcastInDim S4096x32000 ![0, 1] Facts₀.bcast_S4096x1_S4096x32000_0_1 e_v3
  let e_v5 : FVec Ideal S4096x32000 .f32 := subf v0 e_v4
  let e_v6 : FVec Ideal S4096x32000 .f32 := Host.exp e_v5
  let e_cst_1 : FVec Ideal S_ .f32 := constant S_ .f32 0x00000000#32
  let e_v7 : FVec Ideal S4096 .f32 := Host.reduceAdd e_v6 e_cst_1 Facts₀.reducesTo_S4096x32000_S4096_d1 Facts₀.h_S_
  let e_v8 : FVec Ideal S4096x1 .f32 := broadcastInDim S4096x1 ![0] Facts₀.bcast_S4096_S4096x1_0 e_v7
  let e_v9 : FVec Ideal S4096x1 .f32 := Host.log e_v8
  let e_v10 : FVec Ideal S4096x32000 .f32 := broadcastInDim S4096x32000 ![0, 1] Facts₀.bcast_S4096x1_S4096x32000_0_1 e_v9
  subf e_v5 e_v10

def takeAlong (v2 : FVec Ideal S2048x32000 .f32) (v7 : IVec S2048x1 32) : FVec Ideal S2048x1 .f32 :=
  let t_c : IVec S_ 32 := constantI S_ 32 0#32
  let t_v0 : IVec S2048x1 32 := broadcastInDim S2048x1 ![] Facts₀.bcast_S_S2048x1 t_c
  let t_v1 : IVec S2048x1 1 := cmpi .slt v7 t_v0
  let t_c_0 : IVec S_ 32 := constantI S_ 32 32000#32
  let t_v2 : IVec S2048x1 32 := broadcastInDim S2048x1 ![] Facts₀.bcast_S_S2048x1 t_c_0
  let t_v3 : IVec S2048x1 32 := addi v7 t_v2
  let t_v4 : IVec S2048x1 32 := select t_v1 t_v3 v7
  let t_v5 : IVec S2048x1x1 32 := shapeCast S2048x1x1 t_v4 Facts₀.shapeCasts_S2048x1_S2048x1x1
  let t_c_1 : IVec S1 32 := constantI S1 32 31999#32
  let t_c_2 : IVec S_ 32 := constantI S_ 32 0#32
  let t_v6 : IVec S2048x1x1 32 := broadcastInDim S2048x1x1 ![] Facts₀.bcast_S_S2048x1x1 t_c_2
  let t_v7 : IVec S2048x1x1 1 := cmpi .sge t_v5 t_v6
  let t_v8 : IVec S1x1x1 32 := broadcastInDim S1x1x1 ![2] Facts₀.bcast_S1_S1x1x1_2 t_c_1
  let t_v9 : IVec S2048x1x1 32 := broadcastInDim S2048x1x1 ![0, 1, 2] Facts₀.bcast_S1x1x1_S2048x1x1_0_1_2 t_v8
  let t_v10 : IVec S2048x1x1 1 := cmpi .sle t_v5 t_v9
  let t_v11 : IVec S2048x1x1 1 := andi t_v7 t_v10
  let t_c_3 : IVec S_ 1 := constantI S_ 1 1#1
  let t_v12 : IVec S2048x1 1 := Host.reduce IntOp.andi t_v11 t_c_3 Facts₀.reducesTo_S2048x1x1_S2048x1_d2 Facts₀.h_S_
  let t_v13 : FVec Ideal S2048x1 .f32 := Host.gather gather_S2048x32000_S2048x1x1_S2048x1_n_1_0_0_1_2_11 v2 t_v5
  let t_cst : FVec Ideal S_ .f32 := constant S_ .f32 0x7FC00000#32
  let t_v14 : FVec Ideal S2048x1 .f32 := broadcastInDim S2048x1 ![] Facts₀.bcast_S_S2048x1 t_cst
  select t_v12 t_v13 t_v14

def oddsR (v18 : FVec Ideal S4096x32000 .f32) : FVec Ideal S2048 .f32 :=
  let cst_4 : FVec Ideal S_ .f32 := constant S_ .f32 0x00000000#32
  let v19 : FVec Ideal S4096 .f32 := Host.reduceAdd v18 cst_4 Facts₀.reducesTo_S4096x32000_S4096_d1 Facts₀.h_S_
  let cst_5 : FVec Ideal S_ .f32 := constant S_ .f32 0x46FA0000#32
  let v20 : FVec Ideal S4096 .f32 := broadcastInDim S4096 ![] Facts₀.bcast_S_S4096 cst_5
  let v21 : FVec Ideal S4096 .f32 := Host.divf v19 v20
  let ch : FVec Ideal S2048 .f32 := extractStridedSlice S2048 ![0] v21 Facts₀.slices_S4096_S2048_0
  let rj : FVec Ideal S2048 .f32 := extractStridedSlice S2048 ![2048] v21 Facts₀.slices_S4096_S2048_2048
  let df : FVec Ideal S2048 .f32 := subf ch rj
  let lc : FVec Ideal S2048 .f32 := Host.log1p (Host.negf (Host.exp ch))
  let lr : FVec Ideal S2048 .f32 := Host.log1p (Host.negf (Host.exp rj))
  subf df (subf lc lr)

end Pieces

theorem cast_cast_cancel {α β : Type} (h : α = β) (h' : β = α) (v : α) : cast h' (cast h v) = v := by
  subst h
  rfl

section Stretches
variable (U : Valuation τ sig (Elt Ideal))

theorem r0_v0 : (StableHlo.after (RefOps.ops0 (F := Ideal)) U (Proc.devRef .tc main_v0) : FVec Ideal S4096x32000 .f32)
    = (Host.dotGeneral (φ₁ := .f32) (φ₂ := .f32) dot_S4096x2048_S32000x2048_S4096x32000_1_1_0_0_n_n none (U (Proc.devRef .tc main_arg0) : FVec Ideal S4096x2048 .f32) (U (Proc.devRef .tc main_arg1) : FVec Ideal S32000x2048 .f32) : FVec Ideal S4096x32000 .f32) := by
  simp only [RefOps.ops0]
  after_results_simp <;> (try simp only [cast_cast_cancel]) <;> rfl
theorem r0_v1 : (StableHlo.after (RefOps.ops0 (F := Ideal)) U (Proc.devRef .tc main_v1) : S2048x32000.Idx → EReal)
    = (extractStridedSlice (s := S4096x32000) S2048x32000 ![0, 0] (Host.dotGeneral (φ₁ := .f32) (φ₂ := .f32) dot_S4096x2048_S32000x2048_S4096x32000_1_1_0_0_n_n none (U (Proc.devRef .tc main_arg0) : FVec Ideal S4096x2048 .f32) (U (Proc.devRef .tc main_arg1) : FVec Ideal S32000x2048 .f32) : FVec Ideal S4096x32000 .f32) Facts₀.slices_S4096x32000_S2048x32000_0_0 : S2048x32000.Idx → EReal) := by
  simp only [RefOps.ops0]
  after_results_simp <;> (try simp only [cast_cast_cancel]) <;> rfl
theorem k0_arg2 : StableHlo.after (RefOps.ops0 (F := Ideal)) U (Proc.devRef .tc main_arg2) = U (Proc.devRef .tc main_arg2) := by
  simp only [RefOps.ops0]
  after_results

set_option maxHeartbeats 4000000 in
theorem r1_v2 : (StableHlo.after (RefOps.ops1 (F := Ideal)) U (Proc.devRef .tc main_v2) : S2048x32000.Idx → EReal)
    = (logSoftH (U (Proc.devRef .tc main_v1) : S2048x32000.Idx → EReal) : S2048x32000.Idx → EReal) := by
  simp only [RefOps.ops1]
  after_results_simp <;> (try simp only [cast_cast_cancel]) <;> rfl
theorem k1_v0 : StableHlo.after (RefOps.ops1 (F := Ideal)) U (Proc.devRef .tc main_v0) = U (Proc.devRef .tc main_v0) := by
  simp only [RefOps.ops1]
  after_results
theorem k1_arg2 : StableHlo.after (RefOps.ops1 (F := Ideal)) U (Proc.devRef .tc main_arg2) = U (Proc.devRef .tc main_arg2) := by
  simp only [RefOps.ops1]
  after_results

theorem r2_v3 : (StableHlo.after (RefOps.ops2 (F := Ideal)) U (Proc.devRef .tc main_v3) : S2048.Idx → BitVec 32)
    = (extractStridedSlice S2048 ![0] (U (Proc.devRef .tc main_arg2) : S4096.Idx → BitVec 32) Facts₀.slices_S4096_S2048_0 : S2048.Idx → BitVec 32) := by
  simp only [RefOps.ops2]
  after_results_simp <;> (try simp only [cast_cast_cancel]) <;> rfl
theorem r2_v5 : (StableHlo.after (RefOps.ops2 (F := Ideal)) U (Proc.devRef .tc main_v5) : S2048.Idx → BitVec 1)
    = (RefOut.refValid (U (Proc.devRef .tc main_arg2) : S4096.Idx → BitVec 32) : S2048.Idx → BitVec 1) := by
  simp only [RefOps.ops2]
  after_results_simp <;> (try simp only [cast_cast_cancel]) <;> rfl
theorem r2_c0 : (StableHlo.after (RefOps.ops2 (F := Ideal)) U (Proc.devRef .tc main_c_0) : S_.Idx → BitVec 32)
    = (constantI S_ 32 0#32 : S_.Idx → BitVec 32) := by
  simp only [RefOps.ops2]
  after_results_simp <;> (try simp only [cast_cast_cancel]) <;> rfl
theorem k2_v0 : StableHlo.after (RefOps.ops2 (F := Ideal)) U (Proc.devRef .tc main_v0) = U (Proc.devRef .tc main_v0) := by
  simp only [RefOps.ops2]
  after_results
theorem k2_v2 : StableHlo.after (RefOps.ops2 (F := Ideal)) U (Proc.devRef .tc main_v2) = U (Proc.devRef .tc main_v2) := by
  simp only [RefOps.ops2]
  after_results

theorem r3_v6 : (StableHlo.after (RefOps.ops3 (F := Ideal)) U (Proc.devRef .tc main_v6) : S2048.Idx → BitVec 32)
    = (select (U (Proc.devRef .tc main_v5) : S2048.Idx → BitVec 1) (U (Proc.devRef .tc main_v3) : S2048.Idx → BitVec 32)
        (broadcastInDim S2048 ![] Facts₀.bcast_S_S2048 (id (U (Proc.devRef .tc main_c_0) : S_.Idx → BitVec 32))) : S2048.Idx → BitVec 32) := by
  simp only [RefOps.ops3]
  after_results_simp <;> (try simp only [cast_cast_cancel]) <;> rfl
theorem k3_v0 : StableHlo.after (RefOps.ops3 (F := Ideal)) U (Proc.devRef .tc main_v0) = U (Proc.devRef .tc main_v0) := by
  simp only [RefOps.ops3]
  after_results
theorem k3_v5 : StableHlo.after (RefOps.ops3 (F := Ideal)) U (Proc.devRef .tc main_v5) = U (Proc.devRef .tc main_v5) := by
  simp only [RefOps.ops3]
  after_results
theorem k3_v2 : StableHlo.after (RefOps.ops3 (F := Ideal)) U (Proc.devRef .tc main_v2) = U (Proc.devRef .tc main_v2) := by
  simp only [RefOps.ops3]
  after_results

theorem r4_v7 : (StableHlo.after (RefOps.ops4 (F := Ideal)) U (Proc.devRef .tc main_v7) : S2048x1.Idx → BitVec 32)
    = (broadcastInDim S2048x1 ![0] Facts₀.bcast_S2048_S2048x1_0 (U (Proc.devRef .tc main_v6) : S2048.Idx → BitVec 32) : S2048x1.Idx → BitVec 32) := by
  simp only [RefOps.ops4]
  after_results_simp <;> (try simp only [cast_cast_cancel]) <;> rfl
theorem k4_v0 : StableHlo.after (RefOps.ops4 (F := Ideal)) U (Proc.devRef .tc main_v0) = U (Proc.devRef .tc main_v0) := by
  simp only [RefOps.ops4]
  after_results
theorem k4_v5 : StableHlo.after (RefOps.ops4 (F := Ideal)) U (Proc.devRef .tc main_v5) = U (Proc.devRef .tc main_v5) := by
  simp only [RefOps.ops4]
  after_results
theorem k4_v2 : StableHlo.after (RefOps.ops4 (F := Ideal)) U (Proc.devRef .tc main_v2) = U (Proc.devRef .tc main_v2) := by
  simp only [RefOps.ops4]
  after_results

set_option maxHeartbeats 4000000 in
theorem r5_v8 : (StableHlo.after (RefOps.ops5 (F := Ideal)) U (Proc.devRef .tc main_v8) : S2048x1.Idx → EReal)
    = (takeAlong (U (Proc.devRef .tc main_v2) : S2048x32000.Idx → EReal) (U (Proc.devRef .tc main_v7) : S2048x1.Idx → BitVec 32) : S2048x1.Idx → EReal) := by
  simp only [RefOps.ops5]
  after_results_simp <;> (try simp only [cast_cast_cancel]) <;> rfl
theorem k5_v0 : StableHlo.after (RefOps.ops5 (F := Ideal)) U (Proc.devRef .tc main_v0) = U (Proc.devRef .tc main_v0) := by
  simp only [RefOps.ops5]
  after_results
theorem k5_v5 : StableHlo.after (RefOps.ops5 (F := Ideal)) U (Proc.devRef .tc main_v5) = U (Proc.devRef .tc main_v5) := by
  simp only [RefOps.ops5]
  after_results

theorem r6_v10 : (StableHlo.after (RefOps.ops6 (F := Ideal)) U (Proc.devRef .tc main_v10) : S2048.Idx → EReal)
    = (Host.negf (F := Ideal) (φ := .f32) (shapeCast S2048 (U (Proc.devRef .tc main_v8) : S2048x1.Idx → EReal) Facts₀.shapeCasts_S2048x1_S2048) : S2048.Idx → EReal) := by
  simp only [RefOps.ops6]
  after_results_simp <;> (try simp only [cast_cast_cancel]) <;> rfl
theorem r6_cst : (StableHlo.after (RefOps.ops6 (F := Ideal)) U (Proc.devRef .tc main_cst) : S_.Idx → EReal)
    = (constant (F := Ideal) S_ .f32 0x00000000#32 : S_.Idx → EReal) := by
  simp only [RefOps.ops6]
  after_results_simp <;> (try simp only [cast_cast_cancel]) <;> rfl
theorem k6_v0 : StableHlo.after (RefOps.ops6 (F := Ideal)) U (Proc.devRef .tc main_v0) = U (Proc.devRef .tc main_v0) := by
  simp only [RefOps.ops6]
  after_results
theorem k6_v5 : StableHlo.after (RefOps.ops6 (F := Ideal)) U (Proc.devRef .tc main_v5) = U (Proc.devRef .tc main_v5) := by
  simp only [RefOps.ops6]
  after_results

theorem r7_v11 : (StableHlo.after (RefOps.ops7 (F := Ideal)) U (Proc.devRef .tc main_v11) : S2048.Idx → EReal)
    = (select (U (Proc.devRef .tc main_v5) : S2048.Idx → BitVec 1) (U (Proc.devRef .tc main_v10) : S2048.Idx → EReal)
        (broadcastInDim S2048 ![] Facts₀.bcast_S_S2048 (id (U (Proc.devRef .tc main_cst) : S_.Idx → EReal))) : S2048.Idx → EReal) := by
  simp only [RefOps.ops7]
  after_results_simp <;> (try simp only [cast_cast_cancel]) <;> rfl
theorem k7_v0 : StableHlo.after (RefOps.ops7 (F := Ideal)) U (Proc.devRef .tc main_v0) = U (Proc.devRef .tc main_v0) := by
  simp only [RefOps.ops7]
  after_results
theorem k7_v5 : StableHlo.after (RefOps.ops7 (F := Ideal)) U (Proc.devRef .tc main_v5) = U (Proc.devRef .tc main_v5) := by
  simp only [RefOps.ops7]
  after_results

theorem r8_v17 : (StableHlo.after (RefOps.ops8 (F := Ideal)) U (Proc.devRef .tc main_v17) : S_.Idx → EReal)
    = (Cert.Spec.ceTerm (U (Proc.devRef .tc main_v11) : S2048.Idx → EReal) (U (Proc.devRef .tc main_v5) : S2048.Idx → BitVec 1) : S_.Idx → EReal) := by
  simp only [RefOps.ops8]
  after_results_simp <;> (try simp only [cast_cast_cancel]) <;> rfl
theorem k8_v0 : StableHlo.after (RefOps.ops8 (F := Ideal)) U (Proc.devRef .tc main_v0) = U (Proc.devRef .tc main_v0) := by
  simp only [RefOps.ops8]
  after_results

set_option maxHeartbeats 4000000 in
theorem r9_v18 : (StableHlo.after (RefOps.ops9 (F := Ideal)) U (Proc.devRef .tc main_v18) : S4096x32000.Idx → EReal)
    = (logSoftA (U (Proc.devRef .tc main_v0) : S4096x32000.Idx → EReal) : S4096x32000.Idx → EReal) := by
  simp only [RefOps.ops9]
  after_results_simp <;> (try simp only [cast_cast_cancel]) <;> rfl
theorem k9_v17 : StableHlo.after (RefOps.ops9 (F := Ideal)) U (Proc.devRef .tc main_v17) = U (Proc.devRef .tc main_v17) := by
  simp only [RefOps.ops9]
  after_results

set_option maxHeartbeats 4000000 in
theorem r10_v32 : (StableHlo.after (RefOps.ops10 (F := Ideal)) U (Proc.devRef .tc main_v32) : S2048.Idx → EReal)
    = (oddsR (U (Proc.devRef .tc main_v18) : S4096x32000.Idx → EReal) : S2048.Idx → EReal) := by
  simp only [RefOps.ops10]
  after_results_simp <;> (try simp only [cast_cast_cancel]) <;> rfl
theorem k10_v17 : StableHlo.after (RefOps.ops10 (F := Ideal)) U (Proc.devRef .tc main_v17) = U (Proc.devRef .tc main_v17) := by
  simp only [RefOps.ops10]
  after_results

set_option maxHeartbeats 4000000 in
theorem r11_v33 : (StableHlo.after (RefOps.ops11 (F := Ideal)) U (Proc.devRef .tc main_v33) : S2048.Idx → EReal)
    = (Cert.Spec.logSigmoid (U (Proc.devRef .tc main_v32) : S2048.Idx → EReal) : S2048.Idx → EReal) := by
  simp only [RefOps.ops11]
  after_results_simp <;> (try simp only [cast_cast_cancel]) <;> rfl
theorem k11_v17 : StableHlo.after (RefOps.ops11 (F := Ideal)) U (Proc.devRef .tc main_v17) = U (Proc.devRef .tc main_v17) := by
  simp only [RefOps.ops11]
  after_results

theorem r12_v38 : (StableHlo.after (RefOps.ops12 (F := Ideal)) U (Proc.devRef .tc main_v38) : S_.Idx → EReal)
    = (subf (U (Proc.devRef .tc main_v17) : S_.Idx → EReal)
        (Host.divf (Host.reduceAdd (mulf (broadcastInDim S2048 ![] Facts₀.bcast_S_S2048 (constant (F := Ideal) S_ .f32 0x3DCCCCCD#32))
            (U (Proc.devRef .tc main_v33) : S2048.Idx → EReal)) (constant (F := Ideal) S_ .f32 0x00000000#32) Facts₀.reducesTo_S2048_S_d0 Facts₀.h_S_)
          (constant (F := Ideal) S_ .f32 0x45000000#32)) : S_.Idx → EReal) := by
  simp only [RefOps.ops12]
  after_results_simp <;> (try simp only [cast_cast_cancel]) <;> rfl

end Stretches

theorem val (U : Valuation τ sig (Elt Ideal)) :
    (StableHlo.after (List.flatten [RefOps.ops0, RefOps.ops1, RefOps.ops2, RefOps.ops3, RefOps.ops4, RefOps.ops5, RefOps.ops6, RefOps.ops7, RefOps.ops8, RefOps.ops9, RefOps.ops10, RefOps.ops11, RefOps.ops12]) U (Proc.devRef .tc main_v38) : S_.Idx → EReal)
      = Cert.ReferenceIdeal.RefOut.out (U (Proc.devRef .tc main_arg0)) (U (Proc.devRef .tc main_arg1)) (U (Proc.devRef .tc main_arg2)) := by
  simp only [List.flatten_cons, List.flatten_nil, List.append_nil, StableHlo.after_append]
  rw [r12_v38, r11_v33, k11_v17, r10_v32, k10_v17, r9_v18, k9_v17, r8_v17, k8_v0, r7_v11, k7_v5, k7_v0,
    r6_v10, r6_cst, k6_v5, k6_v0, r5_v8, k5_v5, k5_v0, r4_v7, k4_v2, k4_v5, k4_v0, r3_v6, k3_v2, k3_v5, k3_v0,
    r2_v3, r2_v5, r2_c0, k2_v2, k2_v0, r1_v2, k1_v0, k1_arg2, r0_v0, r0_v1, k0_arg2]
  dsimp only [RefOut.out, RefOut.refAlp, RefOut.refNll, Cert.Spec.tail, Cert.Spec.orTerm, logSoftH, logSoftA, takeAlong, oddsR]

end Cert.ReferenceIdeal.RefRunVal

end
-- ==== Proof.RefRunKept.lean ====
import proofs.«424783_j8701603741901_3_alg».proof.Proof.RefOps
import Idealize.ShloMosaic.PureOps.Ideal
import Idealize.ShloMosaic.Lib.StableHlo.Run

noncomputable section

namespace Cert.ReferenceIdeal.RefRunKept

open Cert.ReferenceIdeal Cert.ReferenceIdeal.Gen Cert.ReferenceIdeal.RefOps Idealize.ShloMosaic Idealize.ShloMosaic.TcCoe
  Idealize.SL.Sem Idealize.ShloMosaic.StableHlo

abbrev Keeps (l : List (HloOp τ sig (Elt Ideal))) (r : Ref sig .tc) : Prop :=
  l.Forall fun op => (Proc.devRef .tc r : DevRef τ sig) ∉ op.writes

theorem after_flatten_of_keeps (r : Ref sig .tc) (L : List (List (HloOp τ sig (Elt Ideal))))
    (U : Valuation τ sig (Elt Ideal)) (h : L.Forall fun l => Keeps l r) :
    after L.flatten U (Proc.devRef .tc r) = U (Proc.devRef .tc r) :=
  after_of_forall_not_mem _ _ fun op hop =>
    let ⟨l, hl, ho⟩ := List.mem_flatten.mp hop
    List.forall_iff_forall_mem.mp (List.forall_iff_forall_mem.mp h l hl) op ho

local macro "keeps " l:ident : tactic =>
  `(tactic| (
    refine ⟨?_, ?_, ?_⟩ <;>
      (simp only [Keeps, $l:ident, List.Forall, nullary_writes, unary_writes, binary_writes, ternary_writes, reshape_writes,
          Finset.mem_singleton]
       repeat' apply And.intro
       all_goals exact devRef_ne_of_ne (by decide))))

theorem keeps0 : Keeps ops0 main_arg0 ∧ Keeps ops0 main_arg1 ∧ Keeps ops0 main_arg2 := by keeps ops0
theorem keeps1 : Keeps ops1 main_arg0 ∧ Keeps ops1 main_arg1 ∧ Keeps ops1 main_arg2 := by keeps ops1
theorem keeps2 : Keeps ops2 main_arg0 ∧ Keeps ops2 main_arg1 ∧ Keeps ops2 main_arg2 := by keeps ops2
theorem keeps3 : Keeps ops3 main_arg0 ∧ Keeps ops3 main_arg1 ∧ Keeps ops3 main_arg2 := by keeps ops3
theorem keeps4 : Keeps ops4 main_arg0 ∧ Keeps ops4 main_arg1 ∧ Keeps ops4 main_arg2 := by keeps ops4
theorem keeps5 : Keeps ops5 main_arg0 ∧ Keeps ops5 main_arg1 ∧ Keeps ops5 main_arg2 := by keeps ops5
theorem keeps6 : Keeps ops6 main_arg0 ∧ Keeps ops6 main_arg1 ∧ Keeps ops6 main_arg2 := by keeps ops6
theorem keeps7 : Keeps ops7 main_arg0 ∧ Keeps ops7 main_arg1 ∧ Keeps ops7 main_arg2 := by keeps ops7
theorem keeps8 : Keeps ops8 main_arg0 ∧ Keeps ops8 main_arg1 ∧ Keeps ops8 main_arg2 := by keeps ops8
theorem keeps9 : Keeps ops9 main_arg0 ∧ Keeps ops9 main_arg1 ∧ Keeps ops9 main_arg2 := by keeps ops9
theorem keeps10 : Keeps ops10 main_arg0 ∧ Keeps ops10 main_arg1 ∧ Keeps ops10 main_arg2 := by keeps ops10
theorem keeps11 : Keeps ops11 main_arg0 ∧ Keeps ops11 main_arg1 ∧ Keeps ops11 main_arg2 := by keeps ops11
theorem keeps12 : Keeps ops12 main_arg0 ∧ Keeps ops12 main_arg1 ∧ Keeps ops12 main_arg2 := by keeps ops12

theorem kept0 (U : Valuation τ sig (Elt Ideal)) : StableHlo.after (List.flatten [RefOps.ops0, RefOps.ops1, RefOps.ops2, RefOps.ops3, RefOps.ops4, RefOps.ops5, RefOps.ops6, RefOps.ops7, RefOps.ops8, RefOps.ops9, RefOps.ops10, RefOps.ops11, RefOps.ops12]) U (Proc.devRef .tc main_arg0) = U (Proc.devRef .tc main_arg0) :=
  after_flatten_of_keeps main_arg0 _ U
    ⟨keeps0.1, keeps1.1, keeps2.1, keeps3.1, keeps4.1, keeps5.1, keeps6.1, keeps7.1, keeps8.1, keeps9.1, keeps10.1,
      keeps11.1, keeps12.1⟩

theorem kept1 (U : Valuation τ sig (Elt Ideal)) : StableHlo.after (List.flatten [RefOps.ops0, RefOps.ops1, RefOps.ops2, RefOps.ops3, RefOps.ops4, RefOps.ops5, RefOps.ops6, RefOps.ops7, RefOps.ops8, RefOps.ops9, RefOps.ops10, RefOps.ops11, RefOps.ops12]) U (Proc.devRef .tc main_arg1) = U (Proc.devRef .tc main_arg1) :=
  after_flatten_of_keeps main_arg1 _ U
    ⟨keeps0.2.1, keeps1.2.1, keeps2.2.1, keeps3.2.1, keeps4.2.1, keeps5.2.1, keeps6.2.1, keeps7.2.1, keeps8.2.1, keeps9.2.1,
      keeps10.2.1, keeps11.2.1, keeps12.2.1⟩

theorem kept2 (U : Valuation τ sig (Elt Ideal)) : StableHlo.after (List.flatten [RefOps.ops0, RefOps.ops1, RefOps.ops2, RefOps.ops3, RefOps.ops4, RefOps.ops5, RefOps.ops6, RefOps.ops7, RefOps.ops8, RefOps.ops9, RefOps.ops10, RefOps.ops11, RefOps.ops12]) U (Proc.devRef .tc main_arg2) = U (Proc.devRef .tc main_arg2) :=
  after_flatten_of_keeps main_arg2 _ U
    ⟨keeps0.2.2, keeps1.2.2, keeps2.2.2, keeps3.2.2, keeps4.2.2, keeps5.2.2, keeps6.2.2, keeps7.2.2, keeps8.2.2, keeps9.2.2,
      keeps10.2.2, keeps11.2.2, keeps12.2.2⟩

end Cert.ReferenceIdeal.RefRunKept

end
-- ==== Proof.RefRunAll.lean ====
import proofs.«424783_j8701603741901_3_alg».proof.Proof.RefRun
import proofs.«424783_j8701603741901_3_alg».proof.Proof.RefRunVal
import proofs.«424783_j8701603741901_3_alg».proof.Proof.RefRunKept

noncomputable section

namespace Cert.ReferenceIdeal.RefRun

open Cert.ReferenceIdeal Cert.ReferenceIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = Cert.ReferenceIdeal.RefOut.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v38).trans (Cert.ReferenceIdeal.RefRunVal.val (StableHlo.launchContents m c)),
       (h c main_arg0).trans (Cert.ReferenceIdeal.RefRunKept.kept0 (StableHlo.launchContents m c)),
       (h c main_arg1).trans (Cert.ReferenceIdeal.RefRunKept.kept1 (StableHlo.launchContents m c)),
       (h c main_arg2).trans (Cert.ReferenceIdeal.RefRunKept.kept2 (StableHlo.launchContents m c))⟩)
    (run_after m ρ)

end Cert.ReferenceIdeal.RefRun

end
-- ==== Proof.RefMath.lean ====
import Mathlib.Data.EReal.Basic
import Mathlib.Data.EReal.Operations
import Mathlib.Analysis.SpecialFunctions.Log.Basic
import Mathlib.Algebra.BigOperators.Field
import Mathlib.Data.Finset.Lattice.Fold
import Mathlib.Tactic.Ring
import Mathlib.Tactic.FieldSimp
import Mathlib.Tactic.NormNum

noncomputable section

namespace Cert.ReferenceIdeal.RefMath

open scoped BigOperators

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem fold_max_coe {ι : Type*} (s : Finset ι) (hs : s.Nonempty) (f : ι → ℝ) :
    s.fold max (⊥ : EReal) (fun i => ((f i : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

theorem one_le_sum_exp {ι : Type*} [Fintype ι] (hs : (Finset.univ : Finset ι).Nonempty) (L : ι → ℝ) :
    1 ≤ ∑ v, Real.exp (L v - Finset.univ.sup' hs L) := by
  obtain ⟨v0, hv0, hv⟩ := Finset.exists_mem_eq_sup' hs L
  calc (1 : ℝ) = Real.exp (L v0 - Finset.univ.sup' hs L) := by rw [hv, sub_self, Real.exp_zero]
    _ ≤ ∑ v, Real.exp (L v - Finset.univ.sup' hs L) :=
      Finset.single_le_sum (f := fun v => Real.exp (L v - Finset.univ.sup' hs L))
        (fun v _ => (Real.exp_pos _).le) hv0

theorem sum_exp_pos {ι : Type*} [Fintype ι] (hs : (Finset.univ : Finset ι).Nonempty) (L : ι → ℝ) :
    0 < ∑ v, Real.exp (L v - Finset.univ.sup' hs L) :=
  lt_of_lt_of_le one_pos (one_le_sum_exp hs L)

theorem mean_sub (L : Fin 32000 → ℝ) (M G : ℝ) :
    (∑ v, (L v - M - G)) * (1 / 32000) = (∑ v, L v) / 32000 - M - G := by
  rw [Finset.sum_sub_distrib, Finset.sum_sub_distrib, Finset.sum_const, Finset.sum_const, Finset.card_univ,
    Fintype.card_fin]
  simp only [nsmul_eq_mul]
  push_cast
  ring

end Cert.ReferenceIdeal.RefMath

end
-- ==== Proof.RefIndex.lean ====
import proofs.«424783_j8701603741901_3_alg».proof.Proof.RefOut
import proofs.«424783_j8701603741901_3_alg».proof.Proof.RefMath
import Idealize.ShloMosaic.PureOps.Ideal.Laws
import Idealize.ShloMosaic.Lib.Pipeline.Value

noncomputable section

namespace Cert.ReferenceIdeal.RefIndex

open Idealize.ShloMosaic Idealize.ShloMosaic.ValueIdx
open Cert.ReferenceIdeal Cert.ReferenceIdeal.Facts₀ Cert.ReferenceIdeal.RefMath
open scoped BigOperators

theorem dot_apply [Facts₀] (x : FVec Ideal S4096x2048 .f32) (W : FVec Ideal S32000x2048 .f32)
    (hx : ∀ i, x i = (((x i).toReal : ℝ) : EReal)) (hW : ∀ i, W i = (((W i).toReal : ℝ) : EReal))
    (b : Fin 4096) (v : Fin 32000) :
    Host.dotGeneral dot_S4096x2048_S32000x2048_S4096x32000_1_1_0_0_n_n none x W (ix2 b v)
      = ((Cert.Spec.logit x W b v : ℝ) : EReal) := by
  show FloatOps.dotGeneral _ none _ x W (ix2 b v) = _
  rw [Ideal.dotGeneral_apply,
    ← Equiv.sum_comp (contrEquiv1 dot_S4096x2048_S32000x2048_S4096x32000_1_1_0_0_n_n 2048 rfl rfl).symm]
  unfold Cert.Spec.logit
  rw [← coe_sum]
  refine Finset.sum_congr rfl fun h _ => ?_
  have c2 := contrEquiv1_symm_val dot_S4096x2048_S32000x2048_S4096x32000_1_1_0_0_n_n 2048 rfl rfl h
  have l2 : dot_S4096x2048_S32000x2048_S4096x32000_1_1_0_0_n_n.lhsIdx (ix2 b v)
      ((contrEquiv1 _ 2048 rfl rfl).symm h) = ix2 b h := by
    funext ax; apply Fin.ext
    match ax with
    | ⟨0, _⟩ => simp [DotDims.lhsIdx, dot_S4096x2048_S32000x2048_S4096x32000_1_1_0_0_n_n]; rfl
    | ⟨1, _⟩ => simp [DotDims.lhsIdx, dot_S4096x2048_S32000x2048_S4096x32000_1_1_0_0_n_n]; exact c2
  have r2 : dot_S4096x2048_S32000x2048_S4096x32000_1_1_0_0_n_n.rhsIdx (ix2 b v)
      ((contrEquiv1 _ 2048 rfl rfl).symm h) = ix2 v h := by
    funext ax; apply Fin.ext
    match ax with
    | ⟨0, _⟩ => simp [DotDims.rhsIdx, dot_S4096x2048_S32000x2048_S4096x32000_1_1_0_0_n_n]; rfl
    | ⟨1, _⟩ => simp [DotDims.rhsIdx, dot_S4096x2048_S32000x2048_S4096x32000_1_1_0_0_n_n]; exact c2
  rw [l2, r2, hx, hW, ← EReal.coe_mul]
  rfl

section LogSoftmax
variable {R : ℕ}

abbrev SZ (R : ℕ) : Shape := ⟨2, ![R, 32000]⟩
abbrev SR (R : ℕ) : Shape := ⟨1, ![R]⟩
abbrev SC (R : ℕ) : Shape := ⟨2, ![R, 1]⟩

def lsmSub (R : ℕ) (hred : (SZ R).ReducesTo [1] (SR R)) (h0 : 0 < S_.numel)
    (hb0 : S_.BroadcastsInDim (SR R) (![] : Fin 0 → Fin (SR R).rank))
    (hb1 : (SR R).BroadcastsInDim (SC R) (![0] : Fin 1 → Fin (SC R).rank))
    (hb2 : (SC R).BroadcastsInDim (SZ R) (![0, 1] : Fin 2 → Fin (SZ R).rank))
    (z : FVec Ideal (SZ R) .f32) : FVec Ideal (SZ R) .f32 :=
  let a_cst : FVec Ideal S_ .f32 := constant S_ .f32 0xFF800000#32
  let a_v0 : FVec Ideal (SR R) .f32 := Host.reduce FloatOps.maximumf z a_cst hred h0
  let a_cst_0 : FVec Ideal S_ .f32 := constant S_ .f32 0xFF800000#32
  let a_v1 : FVec Ideal (SR R) .f32 := broadcastInDim (SR R) ![] hb0 a_cst_0
  let a_v2 : FVec Ideal (SR R) .f32 := maximumf a_v1 a_v0
  let a_v3 : FVec Ideal (SC R) .f32 := broadcastInDim (SC R) ![0] hb1 a_v2
  let a_v4 : FVec Ideal (SZ R) .f32 := broadcastInDim (SZ R) ![0, 1] hb2 a_v3
  subf z a_v4

def lsm (R : ℕ) (hred : (SZ R).ReducesTo [1] (SR R)) (h0 : 0 < S_.numel)
    (hb0 : S_.BroadcastsInDim (SR R) (![] : Fin 0 → Fin (SR R).rank))
    (hb1 : (SR R).BroadcastsInDim (SC R) (![0] : Fin 1 → Fin (SC R).rank))
    (hb2 : (SC R).BroadcastsInDim (SZ R) (![0, 1] : Fin 2 → Fin (SZ R).rank))
    (z : FVec Ideal (SZ R) .f32) : FVec Ideal (SZ R) .f32 :=
  let a_v5 : FVec Ideal (SZ R) .f32 := lsmSub R hred h0 hb0 hb1 hb2 z
  let a_v6 : FVec Ideal (SZ R) .f32 := Host.exp a_v5
  let a_cst_1 : FVec Ideal S_ .f32 := constant S_ .f32 0x00000000#32
  let a_v7 : FVec Ideal (SR R) .f32 := Host.reduceAdd a_v6 a_cst_1 hred h0
  let a_v8 : FVec Ideal (SC R) .f32 := broadcastInDim (SC R) ![0] hb1 a_v7
  let a_v9 : FVec Ideal (SC R) .f32 := Host.log a_v8
  let a_v10 : FVec Ideal (SZ R) .f32 := broadcastInDim (SZ R) ![0, 1] hb2 a_v9
  subf a_v5 a_v10

def rowM (L : Fin R → Fin 32000 → ℝ) (b : Fin R) : ℝ :=
  Finset.univ.sup' ⟨(⟨0, by decide⟩ : Fin 32000), Finset.mem_univ _⟩ (L b)

def rowS (L : Fin R → Fin 32000 → ℝ) (b : Fin R) : ℝ := ∑ v : Fin 32000, Real.exp (L b v - rowM L b)

theorem rowS_pos (L : Fin R → Fin 32000 → ℝ) (b : Fin R) : 0 < rowS L b := sum_exp_pos _ (L b)

theorem ofBits_neg_inf : Ideal.ofBits .f32 0xFF800000#32 = ⊥ := by
  simp [Ideal.ofBits, Ideal.ieee]

theorem lift_eq (hr : (SZ R).Reduces [1] (SR R)) (b : Fin R) (v : Fin 32000) : hr.lift (ix1 b) v = ix2 b v := by
  funext c; apply Fin.ext
  match c with
  | ⟨0, _⟩ => rfl
  | ⟨1, _⟩ => rfl

theorem bcastC_apply {α : Type} (hb2 : (SC R).BroadcastsInDim (SZ R) (![0, 1] : Fin 2 → Fin (SZ R).rank))
    (g : (SC R).Idx → α) (b : Fin R) (v : Fin 32000) :
    broadcastInDim (SZ R) ![0, 1] hb2 g (ix2 b v) = g (ix2 b (0 : Fin 1)) :=
  broadcastInDim_apply _ hb2 _ (ix2 b v) (ix2 b (0 : Fin 1)) fun a => by
    match a with
    | ⟨0, _⟩ =>
      show (b.val : ℕ) = if R = 1 then 0 else b.val
      split
      · next h1 => have := b.isLt; omega
      · rfl
    | ⟨1, _⟩ => rfl

theorem bcastR_apply {α : Type} (hb1 : (SR R).BroadcastsInDim (SC R) (![0] : Fin 1 → Fin (SC R).rank))
    (f : (SR R).Idx → α) (b : Fin R) :
    broadcastInDim (SC R) ![0] hb1 f (ix2 b (0 : Fin 1)) = f (ix1 b) :=
  broadcastInDim_apply _ hb1 _ (ix2 b (0 : Fin 1)) (ix1 b) fun a => by
    match a with
    | ⟨0, _⟩ =>
      show (b.val : ℕ) = if R = 1 then 0 else b.val
      split
      · next h1 => have := b.isLt; omega
      · rfl

variable (hred : (SZ R).ReducesTo [1] (SR R)) (h0 : 0 < S_.numel)
  (hb0 : S_.BroadcastsInDim (SR R) (![] : Fin 0 → Fin (SR R).rank))
  (hb1 : (SR R).BroadcastsInDim (SC R) (![0] : Fin 1 → Fin (SC R).rank))
  (hb2 : (SC R).BroadcastsInDim (SZ R) (![0, 1] : Fin 2 → Fin (SZ R).rank))
  (hr : (SZ R).Reduces [1] (SR R))
  (z : FVec Ideal (SZ R) .f32) (L : Fin R → Fin 32000 → ℝ) (hz : ∀ b v, z (ix2 b v) = ((L b v : ℝ) : EReal))

include hr hz in

theorem rowmax_apply (b : Fin R) :
    Host.reduce FloatOps.maximumf z (constant (F := Ideal) S_ .f32 0xFF800000#32) hred h0 (ix1 b)
      = ((rowM L b : ℝ) : EReal) := by
  rw [Host.reduce_eq_fold_single FloatOps.maximumf z _ hred hr h0 (ix1 b)]
  have hf : (z ∘ hr.lift (ix1 b)) = fun v : Fin 32000 => ((L b v : ℝ) : EReal) := by
    funext v
    exact (congrArg z (lift_eq hr b v)).trans (hz b v)
  rw [hf]
  show Finset.fold max (Ideal.ofBits .f32 0xFF800000#32) _ _ = _
  rw [ofBits_neg_inf]
  exact fold_max_coe _ _ _

include hr hz in

theorem lsmSub_apply (b : Fin R) (v : Fin 32000) :
    lsmSub R hred h0 hb0 hb1 hb2 z (ix2 b v) = ((L b v - rowM L b : ℝ) : EReal) := by
  show z (ix2 b v) - broadcastInDim (SZ R) ![0, 1] hb2 (broadcastInDim (SC R) ![0] hb1
    (maximumf (broadcastInDim (SR R) ![] hb0 (constant (F := Ideal) S_ .f32 0xFF800000#32))
      (Host.reduce FloatOps.maximumf z (constant (F := Ideal) S_ .f32 0xFF800000#32) hred h0))) (ix2 b v) = _
  rw [bcastC_apply, bcastR_apply, hz]
  show _ - max (Ideal.ofBits .f32 0xFF800000#32)
    (Host.reduce FloatOps.maximumf z (constant (F := Ideal) S_ .f32 0xFF800000#32) hred h0 (ix1 b)) = _
  rw [rowmax_apply hred h0 hr z L hz b, ofBits_neg_inf, max_eq_right bot_le, ← EReal.coe_sub]

include hr hz in

theorem sumexp_apply (b : Fin R) :
    Host.reduceAdd (Host.exp (lsmSub R hred h0 hb0 hb1 hb2 z)) (constant (F := Ideal) S_ .f32 0x00000000#32) hred h0 (ix1 b)
      = ((rowS L b : ℝ) : EReal) := by
  show Ideal.hostReduceAdd hred (Host.exp (lsmSub R hred h0 hb0 hb1 hb2 z)) (Ideal.ofBits .f32 0x00000000#32) (ix1 b) = _
  rw [Ideal.hostReduceAdd_single hred hr, Ideal.ofBits_zero_f32, zero_add]
  unfold rowS
  rw [← coe_sum]
  refine Finset.sum_congr rfl fun v _ => ?_
  refine (congrArg (fun i => Ideal.exp (lsmSub R hred h0 hb0 hb1 hb2 z i)) (lift_eq hr b v)).trans ?_
  show Ideal.exp (lsmSub R hred h0 hb0 hb1 hb2 z (ix2 b v)) = _
  rw [lsmSub_apply hred h0 hb0 hb1 hb2 hr z L hz b v, Ideal.exp_coe]

include hr hz in

theorem lsm_apply (b : Fin R) (v : Fin 32000) :
    lsm R hred h0 hb0 hb1 hb2 z (ix2 b v) = ((L b v - rowM L b - Real.log (rowS L b) : ℝ) : EReal) := by
  show lsmSub R hred h0 hb0 hb1 hb2 z (ix2 b v) - broadcastInDim (SZ R) ![0, 1] hb2 (Host.log (broadcastInDim (SC R) ![0] hb1
    (Host.reduceAdd (Host.exp (lsmSub R hred h0 hb0 hb1 hb2 z)) (constant (F := Ideal) S_ .f32 0x00000000#32) hred h0)))
    (ix2 b v) = _
  rw [bcastC_apply]
  show _ - Ideal.log (broadcastInDim (SC R) ![0] hb1
    (Host.reduceAdd (Host.exp (lsmSub R hred h0 hb0 hb1 hb2 z)) (constant (F := Ideal) S_ .f32 0x00000000#32) hred h0)
    (ix2 b (0 : Fin 1))) = _
  rw [bcastR_apply, sumexp_apply hred h0 hb0 hb1 hb2 hr z L hz b, lsmSub_apply hred h0 hb0 hb1 hb2 hr z L hz b v,
    Ideal.log_coe, if_neg (not_le.mpr (rowS_pos L b)), ← EReal.coe_sub]

end LogSoftmax

section Gather
variable {α : Type}

open Idealize.ShloMosaic.RowGather (clampRow)

abbrev rowTakeDims (E N : ℕ)
    (wf : GatherDims.WF ⟨2, ![E, N]⟩ ⟨3, ![E, 1, 1]⟩ ⟨2, ![E, 1]⟩ [] [1] [0] [1] [0] 2 ![1, 1]) :
    GatherDims ⟨2, ![E, N]⟩ ⟨3, ![E, 1, 1]⟩ ⟨2, ![E, 1]⟩ where
  offsetDims := []
  collapsedSliceDims := [1]
  operandBatchingDims := [0]
  startIndicesBatchingDims := [0]
  startIndexMap := [1]
  indexVectorDim := 2
  sliceSizes := ![1, 1]
  wf := wf

theorem rowTake_apply {E N w : ℕ} (hN : 0 < N)
    (wf : GatherDims.WF ⟨2, ![E, N]⟩ ⟨3, ![E, 1, 1]⟩ ⟨2, ![E, 1]⟩ [] [1] [0] [1] [0] 2 ![1, 1])
    (x : (⟨2, ![E, N]⟩ : Shape).Idx → α) (idx : IVec ⟨3, ![E, 1, 1]⟩ w) (e : Fin E) :
    Host.gather (rowTakeDims E N wf) x idx (ix2 e (0 : Fin 1))
      = x (ix2 e (clampRow N hN (idx (ix3 e (0 : Fin 1) (0 : Fin 1))))) := by
  unfold Host.gather
  congr 1
  funext a
  refine Fin.ext ?_
  match a with
  | ⟨0, _⟩ =>
    show (rowTakeDims E N wf).start (ix2 e 0) idx 0 + (rowTakeDims E N wf).batchCoord (ix2 e 0) 0
      + (rowTakeDims E N wf).offCoord (ix2 e 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowTakeDims E N wf).operandBatchingDims from List.mem_singleton.mpr rfl)]
    rfl
  | ⟨1, _⟩ =>
    show (rowTakeDims E N wf).start (ix2 e 0) idx 1 + (rowTakeDims E N wf).batchCoord (ix2 e 0) 1
      + (rowTakeDims E N wf).offCoord (ix2 e 0) 1 = _
    rw [GatherDims.batchCoord_eq_zero _ _ _ (by decide : (1 : Fin 2) ∉ [(0 : Fin 2)]),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims E N wf).startIndexMap from List.mem_singleton.mpr rfl)]
    have hsi : (rowTakeDims E N wf).siIdx (ix2 e 0) ⟨List.idxOf (1 : Fin 2) (rowTakeDims E N wf).startIndexMap,
        List.idxOf_lt_length_iff.2 (List.mem_singleton.mpr rfl)⟩ = ix3 e (0 : Fin 1) (0 : Fin 1) := by
      funext b; refine Fin.ext ?_
      match b with
      | ⟨0, _⟩ => rfl
      | ⟨1, _⟩ => rfl
      | ⟨2, _⟩ => rfl
    rw [hsi]
    rfl

end Gather

end Cert.ReferenceIdeal.RefIndex

end
-- ==== Proof.RefValue.lean ====
import proofs.«424783_j8701603741901_3_alg».proof.Proof.RefOut
import proofs.«424783_j8701603741901_3_alg».proof.Proof.RefMath
import proofs.«424783_j8701603741901_3_alg».proof.Proof.RefIndex
import Idealize.ShloMosaic.PureOps.Ideal.Laws
import Idealize.ShloMosaic.Lib.Pipeline.Value

noncomputable section

namespace Cert.ReferenceIdeal.RefValue

open Idealize.ShloMosaic Idealize.ShloMosaic.ValueIdx Idealize.ShloMosaic.RowGather
open Cert.ReferenceIdeal Cert.ReferenceIdeal.Facts₀ Cert.ReferenceIdeal.RefMath Cert.ReferenceIdeal.RefIndex
open Cert.Spec (up label validW safeW wrapW tgt logit rowMax sumExp rowSum alpR nllR Good)
open scoped BigOperators

theorem slice_lo_apply {α : Type} (y : S4096.Idx → α) (h : S4096.Slices ![0] S2048) (b : Fin 2048) :
    extractStridedSlice S2048 ![0] y h (ix1 b) = y (ix1 (up b)) :=
  extractStridedSlice_apply _ y h (ix1 b) (ix1 (up b)) fun a => by
    match a with
    | ⟨0, _⟩ => exact (Nat.zero_add _).symm

theorem slice_rows_apply {α : Type} (z : S4096x32000.Idx → α) (h : S4096x32000.Slices ![0, 0] S2048x32000)
    (b : Fin 2048) (v : Fin 32000) :
    extractStridedSlice S2048x32000 ![0, 0] z h (ix2 b v) = z (ix2 (up b) v) :=
  extractStridedSlice_apply _ z h (ix2 b v) (ix2 (up b) v) fun a => by
    match a with
    | ⟨0, _⟩ => exact (Nat.zero_add _).symm
    | ⟨1, _⟩ => exact (Nat.zero_add _).symm

theorem refValid_apply (y : IVec S4096 32) (b : Fin 2048) : RefOut.refValid y (ix1 b) = validW y b := by
  show IntOp.cmpi .ne (extractStridedSlice S2048 ![0] y slices_S4096_S2048_0 (ix1 b)) 4294967196#32 = _
  rw [slice_lo_apply]
  rfl

theorem refValid_eq (y : IVec S4096 32) : RefOut.refValid y = Cert.Spec.validVec y := by
  funext i
  obtain ⟨b, rfl⟩ : ∃ b : Fin 2048, i = ix1 b := ⟨i 0, eq_ix1 i⟩
  exact refValid_apply y b

theorem ofBits_32000 : Ideal.ofBits .f32 0x46FA0000#32 = ((32000 : ℝ) : EReal) := by
  simp [Ideal.ofBits, Ideal.ieee]
  rw [← EReal.coe_mul]
  norm_num

theorem lsmAll_apply (x : FVec Ideal S4096x2048 .f32) (W : FVec Ideal S32000x2048 .f32) (y : IVec S4096 32)
    (hg : Good x W y) (b : Fin 4096) (v : Fin 32000) :
    lsm 4096 reducesTo_S4096x32000_S4096_d1 h_S_ bcast_S_S4096 bcast_S4096_S4096x1_0 bcast_S4096x1_S4096x32000_0_1
        (Host.dotGeneral dot_S4096x2048_S32000x2048_S4096x32000_1_1_0_0_n_n none x W) (ix2 b v)
      = ((logit x W b v - rowMax x W b - Real.log (sumExp x W b) : ℝ) : EReal) :=
  lsm_apply reducesTo_S4096x32000_S4096_d1 h_S_ bcast_S_S4096 bcast_S4096_S4096x1_0 bcast_S4096x1_S4096x32000_0_1
    (by decide) _ (logit x W) (dot_apply x W hg.hx hg.hW) b v

theorem refAlp_eq (x : FVec Ideal S4096x2048 .f32) (W : FVec Ideal S32000x2048 .f32) (y : IVec S4096 32)
    (hg : Good x W y) : RefOut.refAlp x W = Cert.Spec.alpSpec x W := by
  funext i
  obtain ⟨b, rfl⟩ : ∃ b : Fin 4096, i = ix1 b := ⟨i 0, eq_ix1 i⟩
  have hr : (SZ 4096).Reduces [1] (SR 4096) := by decide
  show Ideal.div (Ideal.hostReduceAdd reducesTo_S4096x32000_S4096_d1
      (lsm 4096 reducesTo_S4096x32000_S4096_d1 h_S_ bcast_S_S4096 bcast_S4096_S4096x1_0 bcast_S4096x1_S4096x32000_0_1
        (Host.dotGeneral dot_S4096x2048_S32000x2048_S4096x32000_1_1_0_0_n_n none x W))
      (Ideal.ofBits .f32 0x00000000#32) (ix1 b)) (Ideal.ofBits .f32 0x46FA0000#32) = ((alpR x W b : ℝ) : EReal)
  rw [Ideal.hostReduceAdd_single _ hr, Ideal.ofBits_zero_f32, zero_add, ofBits_32000,
    Ideal.div_coe (by norm_num : (32000 : ℝ) ≠ 0)]
  have hs : (∑ k : Fin ((SZ 4096).size 1), lsm 4096 reducesTo_S4096x32000_S4096_d1 h_S_ bcast_S_S4096 bcast_S4096_S4096x1_0
        bcast_S4096x1_S4096x32000_0_1 (Host.dotGeneral dot_S4096x2048_S32000x2048_S4096x32000_1_1_0_0_n_n none x W)
        (hr.lift (ix1 b) k))
      = ((∑ v : Fin 32000, (logit x W b v - rowMax x W b - Real.log (sumExp x W b)) : ℝ) : EReal) := by
    rw [← coe_sum]
    refine Finset.sum_congr rfl fun v _ => ?_
    refine (congrArg _ (lift_eq hr b v)).trans ?_
    exact lsmAll_apply x W y hg b v
  rw [hs, ← EReal.coe_mul, mean_sub]
  rfl

def safeLabel (y : IVec S4096 32) : IVec S2048 32 :=
  let v3 : IVec S2048 32 := extractStridedSlice S2048 ![0] y slices_S4096_S2048_0
  let v5 : IVec S2048 1 := RefOut.refValid y
  let c_0 : IVec S_ 32 := constantI S_ 32 0#32
  let b_v0 : IVec S_ 32 := id c_0
  let b_v1 : IVec S2048 32 := broadcastInDim S2048 ![] bcast_S_S2048 b_v0
  select v5 v3 b_v1

theorem safeLabel_apply (y : IVec S4096 32) (b : Fin 2048) : safeLabel y (ix1 b) = safeW y b := by
  show Scalar.select (RefOut.refValid y (ix1 b)) (extractStridedSlice S2048 ![0] y slices_S4096_S2048_0 (ix1 b)) 0#32 = _
  rw [refValid_apply, slice_lo_apply]
  rfl

def wrapCol (v6 : IVec S2048 32) : IVec S2048x1x1 32 :=
  let v7 : IVec S2048x1 32 := broadcastInDim S2048x1 ![0] bcast_S2048_S2048x1_0 v6
  let t_c : IVec S_ 32 := constantI S_ 32 0#32
  let t_v0 : IVec S2048x1 32 := broadcastInDim S2048x1 ![] bcast_S_S2048x1 t_c
  let t_v1 : IVec S2048x1 1 := cmpi .slt v7 t_v0
  let t_c_0 : IVec S_ 32 := constantI S_ 32 32000#32
  let t_v2 : IVec S2048x1 32 := broadcastInDim S2048x1 ![] bcast_S_S2048x1 t_c_0
  let t_v3 : IVec S2048x1 32 := addi v7 t_v2
  let t_v4 : IVec S2048x1 32 := select t_v1 t_v3 v7
  shapeCast S2048x1x1 t_v4 shapeCasts_S2048x1_S2048x1x1

def rangeOk (t_v5 : IVec S2048x1x1 32) : IVec S2048x1 1 :=
  let t_c_1 : IVec S1 32 := constantI S1 32 31999#32
  let t_c_2 : IVec S_ 32 := constantI S_ 32 0#32
  let t_v6 : IVec S2048x1x1 32 := broadcastInDim S2048x1x1 ![] bcast_S_S2048x1x1 t_c_2
  let t_v7 : IVec S2048x1x1 1 := cmpi .sge t_v5 t_v6
  let t_v8 : IVec S1x1x1 32 := broadcastInDim S1x1x1 ![2] bcast_S1_S1x1x1_2 t_c_1
  let t_v9 : IVec S2048x1x1 32 := broadcastInDim S2048x1x1 ![0, 1, 2] bcast_S1x1x1_S2048x1x1_0_1_2 t_v8
  let t_v10 : IVec S2048x1x1 1 := cmpi .sle t_v5 t_v9
  let t_v11 : IVec S2048x1x1 1 := andi t_v7 t_v10
  let t_c_3 : IVec S_ 1 := constantI S_ 1 1#1
  Host.reduce IntOp.andi t_v11 t_c_3 reducesTo_S2048x1x1_S2048x1_d2 h_S_

def takeAlong (p : FVec Ideal S2048x32000 .f32) (v6 : IVec S2048 32) : FVec Ideal S2048 .f32 :=
  let t_v5 : IVec S2048x1x1 32 := wrapCol v6
  let t_v12 : IVec S2048x1 1 := rangeOk t_v5
  let t_v13 : FVec Ideal S2048x1 .f32 := Host.gather gather_S2048x32000_S2048x1x1_S2048x1_n_1_0_0_1_2_11 p t_v5
  let t_cst : FVec Ideal S_ .f32 := constant S_ .f32 0x7FC00000#32
  let t_v14 : FVec Ideal S2048x1 .f32 := broadcastInDim S2048x1 ![] bcast_S_S2048x1 t_cst
  let v8 : FVec Ideal S2048x1 .f32 := select t_v12 t_v13 t_v14
  shapeCast S2048 v8 shapeCasts_S2048x1_S2048

theorem cast3_apply {α : Type} (f : S2048x1.Idx → α) (h : S2048x1.ShapeCasts S2048x1x1) (b : Fin 2048) :
    shapeCast S2048x1x1 f h (ix3 b (0 : Fin 1) (0 : Fin 1)) = f (ix2 b (0 : Fin 1)) :=
  shapeCast_apply f h _ _ (by
    rw [Shape.rowMajor_val_two, Shape.rowMajor_val_three]
    show b.val * 1 + 0 = (b.val * 1 + 0) * 1 + 0
    omega)

theorem cast1_apply {α : Type} (f : S2048x1.Idx → α) (h : S2048x1.ShapeCasts S2048) (b : Fin 2048) :
    shapeCast S2048 f h (ix1 b) = f (ix2 b (0 : Fin 1)) :=
  shapeCast_apply f h _ _ (by
    rw [Shape.rowMajor_val_two, Shape.rowMajor_val_one]
    show b.val * 1 + 0 = b.val
    omega)

theorem fold_fin_one {β : Type} (op : β → β → β) [Std.Commutative op] [Std.Associative op] (c : β) (f : Fin 1 → β) :
    (Finset.univ : Finset (Fin 1)).fold op c f = op (f 0) c := by
  rw [Finset.univ_unique, Finset.fold_singleton]
  rfl

theorem andReduce_apply (m : IVec S2048x1x1 1) (h : S2048x1x1.ReducesTo [2] S2048x1) (h0 : 0 < S_.numel) (b : Fin 2048) :
    Host.reduce IntOp.andi m (constantI S_ 1 1#1) h h0 (ix2 b (0 : Fin 1)) = m (ix3 b (0 : Fin 1) (0 : Fin 1)) := by
  have hr : S2048x1x1.Reduces [2] S2048x1 := by decide
  rw [Host.reduce_eq_fold_single IntOp.andi m _ h hr h0 (ix2 b (0 : Fin 1))]
  refine (fold_fin_one IntOp.andi _ _).trans ?_
  have e : hr.lift (ix2 b (0 : Fin 1)) (0 : Fin 1) = ix3 b (0 : Fin 1) (0 : Fin 1) := by
    funext c; apply Fin.ext
    match c with
    | ⟨0, _⟩ => rfl
    | ⟨1, _⟩ => rfl
    | ⟨2, _⟩ => rfl
  refine (congrArg (fun i => IntOp.andi (m i) 1#1) e).trans ?_
  exact (by decide : ∀ w : BitVec 1, IntOp.andi w 1#1 = w) _

theorem wrapCol_apply (v6 : IVec S2048 32) (b : Fin 2048) :
    wrapCol v6 (ix3 b (0 : Fin 1) (0 : Fin 1)) = wrapW (v6 (ix1 b)) := by
  unfold wrapCol
  refine (cast3_apply _ _ b).trans ?_
  show Scalar.select (IntOp.cmpi .slt (broadcastInDim S2048x1 ![0] bcast_S2048_S2048x1_0 v6 (ix2 b (0 : Fin 1))) 0#32)
    (IntOp.addi (broadcastInDim S2048x1 ![0] bcast_S2048_S2048x1_0 v6 (ix2 b (0 : Fin 1))) 32000#32)
    (broadcastInDim S2048x1 ![0] bcast_S2048_S2048x1_0 v6 (ix2 b (0 : Fin 1))) = _
  rw [bcastR_apply (R := 2048)]
  rfl

theorem rangeOk_apply (t : IVec S2048x1x1 32) (b : Fin 2048)
    (hge : IntOp.cmpi .sge (t (ix3 b (0 : Fin 1) (0 : Fin 1))) 0#32 = 1#1)
    (hle : IntOp.cmpi .sle (t (ix3 b (0 : Fin 1) (0 : Fin 1))) 31999#32 = 1#1) :
    rangeOk t (ix2 b (0 : Fin 1)) = 1#1 := by
  unfold rangeOk
  refine (andReduce_apply _ _ _ b).trans ?_
  show IntOp.andi (IntOp.cmpi .sge (t (ix3 b (0 : Fin 1) (0 : Fin 1))) 0#32)
    (IntOp.cmpi .sle (t (ix3 b (0 : Fin 1) (0 : Fin 1))) 31999#32) = 1#1
  rw [hge, hle]
  rfl

theorem takeAlong_apply (p : FVec Ideal S2048x32000 .f32) (v6 : IVec S2048 32) (b : Fin 2048)
    (hge : IntOp.cmpi .sge (wrapW (v6 (ix1 b))) 0#32 = 1#1) (hle : IntOp.cmpi .sle (wrapW (v6 (ix1 b))) 31999#32 = 1#1) :
    takeAlong p v6 (ix1 b) = p (ix2 b (clampRow 32000 (by decide) (wrapW (v6 (ix1 b))))) := by
  unfold takeAlong
  refine (cast1_apply _ _ b).trans ?_
  show Scalar.select (rangeOk (wrapCol v6) (ix2 b (0 : Fin 1)))
    (Host.gather gather_S2048x32000_S2048x1x1_S2048x1_n_1_0_0_1_2_11 p (wrapCol v6) (ix2 b (0 : Fin 1)))
    (Ideal.ofBits .f32 0x7FC00000#32) = _
  rw [rangeOk_apply _ b (by rw [wrapCol_apply]; exact hge) (by rw [wrapCol_apply]; exact hle), select_one]
  refine (rowTake_apply (E := 2048) (N := 32000) (by decide) gather_S2048x32000_S2048x1x1_S2048x1_n_1_0_0_1_2_11_wf p
    (wrapCol v6) b).trans ?_
  rw [wrapCol_apply]

theorem lsmHalf_apply (x : FVec Ideal S4096x2048 .f32) (W : FVec Ideal S32000x2048 .f32) (y : IVec S4096 32)
    (hg : Good x W y) (b : Fin 2048) (v : Fin 32000) :
    lsm 2048 reducesTo_S2048x32000_S2048_d1 h_S_ bcast_S_S2048 bcast_S2048_S2048x1_0 bcast_S2048x1_S2048x32000_0_1
        (extractStridedSlice S2048x32000 ![0, 0]
          (Host.dotGeneral dot_S4096x2048_S32000x2048_S4096x32000_1_1_0_0_n_n none x W)
          slices_S4096x32000_S2048x32000_0_0) (ix2 b v)
      = ((logit x W (up b) v - rowMax x W (up b) - Real.log (sumExp x W (up b)) : ℝ) : EReal) :=
  lsm_apply reducesTo_S2048x32000_S2048_d1 h_S_ bcast_S_S2048 bcast_S2048_S2048x1_0 bcast_S2048x1_S2048x32000_0_1
    (by decide) _ (fun b v => logit x W (up b) v)
    (fun b v => by rw [slice_rows_apply]; exact dot_apply x W hg.hx hg.hW (up b) v) b v

theorem refNll_eq (x : FVec Ideal S4096x2048 .f32) (W : FVec Ideal S32000x2048 .f32) (y : IVec S4096 32)
    (hg : Good x W y) : RefOut.refNll x W y = Cert.Spec.nllSpec x W y := by
  funext i
  obtain ⟨b, rfl⟩ : ∃ b : Fin 2048, i = ix1 b := ⟨i 0, eq_ix1 i⟩
  show Scalar.select (RefOut.refValid y (ix1 b))
      (-(takeAlong
        (lsm 2048 reducesTo_S2048x32000_S2048_d1 h_S_ bcast_S_S2048 bcast_S2048_S2048x1_0 bcast_S2048x1_S2048x32000_0_1
          (extractStridedSlice S2048x32000 ![0, 0]
            (Host.dotGeneral dot_S4096x2048_S32000x2048_S4096x32000_1_1_0_0_n_n none x W)
            slices_S4096x32000_S2048x32000_0_0))
        (safeLabel y) (ix1 b)))
      (Ideal.ofBits .f32 0x00000000#32)
    = Scalar.select (validW y b) ((nllR x W y b : ℝ) : EReal) (0 : EReal)
  rw [refValid_apply, Ideal.ofBits_zero_f32,
    takeAlong_apply _ _ b (by rw [safeLabel_apply]; exact (hg.hy b).1) (by rw [safeLabel_apply]; exact (hg.hy b).2),
    safeLabel_apply, lsmHalf_apply x W y hg b _, ← EReal.coe_neg]
  have e : -(logit x W (up b) (clampRow 32000 (by decide) (wrapW (safeW y b))) - rowMax x W (up b)
      - Real.log (sumExp x W (up b))) = nllR x W y b := by
    unfold Cert.Spec.nllR Cert.Spec.tgt
    ring
  rw [e]

theorem out_eq (x : FVec Ideal S4096x2048 .f32) (W : FVec Ideal S32000x2048 .f32) (y : IVec S4096 32)
    (hg : Good x W y) : RefOut.out x W y = Cert.Spec.result x W y := by
  unfold RefOut.out Cert.Spec.result
  rw [refAlp_eq x W y hg, refNll_eq x W y hg, refValid_eq]

end Cert.ReferenceIdeal.RefValue

end
-- ==== Proof.PreGood.lean ====
import proofs.«424783_j8701603741901_3_alg».proof.Pre_finite_inputs
import proofs.«424783_j8701603741901_3_alg».proof.Proof.Gen.Pre_finite_inputs
import proofs.«424783_j8701603741901_3_alg».proof.Proof.Spec
import Idealize.ShloMosaic.Lib.ReduceAll
import Idealize.ShloMosaic.Lib.StableHlo.Predicate
import Idealize.ShloMosaic.Lib.ValueIdx

noncomputable section

namespace Cert.PreGood

open Idealize.ShloMosaic Idealize.ShloMosaic.ValueIdx Idealize.ShloMosaic.RowGather Cert.Spec

theorem real_of_abs_lt_top (v : EReal)
    (h : Ideal.cmp .olt (max v (-v)) (Ideal.ofBits .f32 0x7F800000#32) = 1#1) : v = ((v.toReal : ℝ) : EReal) := by
  have htop : Ideal.ofBits .f32 0x7F800000#32 = ⊤ := by simp [Ideal.ofBits, Ideal.ieee]
  rw [htop] at h
  have hlt : max v (-v) < ⊤ := by
    unfold Ideal.cmp at h
    exact of_decide_eq_true ((StableHlo.Predicate.ofBool_eq_one_iff _).1 h)
  obtain ⟨hv, hnv⟩ := max_lt_iff.1 hlt
  have hne_top : v ≠ ⊤ := ne_of_lt hv
  have hne_bot : v ≠ ⊥ := by
    intro hb
    rw [hb, EReal.neg_bot] at hnv
    exact lt_irrefl _ hnv
  exact (EReal.coe_toReal hne_top hne_bot).symm

theorem toInt_w0 : (0#32 : BitVec 32).toInt = 0 := by decide
theorem toInt_w32000 : (32000#32 : BitVec 32).toInt = 32000 := by decide
theorem toInt_w31999 : (31999#32 : BitVec 32).toInt = 31999 := by decide
theorem toInt_wneg32000 : (4294935296#32 : BitVec 32).toInt = -32000 := by decide

theorem slice_label (y : IVec SY 32) (hs : SY.Slices ![0] SH) (b : Fin 2048) :
    extractStridedSlice SH ![0] y hs (ix1 b) = label y b := by
  unfold extractStridedSlice label
  refine congrArg y (funext fun a => ?_)
  match a with
  | ⟨0, _⟩ => exact Fin.ext (Nat.zero_add b.val)

theorem label_range_of_bits (l : BitVec 32)
    (h : IntOp.andi (IntOp.cmpi .sge l 4294935296#32) (IntOp.cmpi .slt l 32000#32) = 1#1) :
    -32000 ≤ l.toInt ∧ l.toInt < 32000 := by
  obtain ⟨hge, hlt⟩ := IntOp.andi_eq_one.1 h
  unfold IntOp.cmpi at hge hlt
  have h1 := BitVec.sle_iff_toInt_le.1 ((StableHlo.Predicate.ofBool_eq_one_iff _).1 hge)
  have h2 := BitVec.slt_iff_toInt_lt.1 ((StableHlo.Predicate.ofBool_eq_one_iff _).1 hlt)
  rw [toInt_wneg32000] at h1
  rw [toInt_w32000] at h2
  exact ⟨h1, h2⟩

theorem safeW_range (y : IVec SY 32) (b : Fin 2048) (h1 : -32000 ≤ (label y b).toInt) (h2 : (label y b).toInt < 32000) :
    -32000 ≤ (safeW y b).toInt ∧ (safeW y b).toInt < 32000 := by
  unfold safeW Scalar.select
  split
  · exact ⟨h1, h2⟩
  · rw [toInt_w0]; omega

theorem wrapW_toInt (i : BitVec 32) (h1 : -32000 ≤ i.toInt) (h2 : i.toInt < 32000) :
    (wrapW i).toInt = if i.toInt < 0 then i.toInt + 32000 else i.toInt := by
  have hs : i.slt 0#32 = decide (i.toInt < 0) := by rw [BitVec.slt_eq_decide, toInt_w0]
  unfold wrapW Scalar.select IntOp.cmpi IntOp.addi
  dsimp only
  rw [hs]
  by_cases hneg : i.toInt < 0
  · rw [if_pos hneg, decide_eq_true hneg, if_pos (by decide), BitVec.toInt_add, toInt_w32000,
      Int.bmod_eq_of_le_mul_two (by omega) (by omega)]
  · rw [if_neg hneg, decide_eq_false hneg, if_neg (by decide)]

theorem range_tests_iff (v : BitVec 32) :
    (IntOp.cmpi .sge v 0#32 = 1#1 ∧ IntOp.cmpi .sle v 31999#32 = 1#1) ↔ (0 ≤ v.toInt ∧ v.toInt ≤ 31999) := by
  unfold IntOp.cmpi
  dsimp only
  rw [StableHlo.Predicate.ofBool_eq_one_iff, StableHlo.Predicate.ofBool_eq_one_iff, BitVec.sle_iff_toInt_le,
    BitVec.sle_iff_toInt_le, toInt_w0, toInt_w31999]

theorem tests_of_label_range (y : IVec SY 32) (b : Fin 2048) (h1 : -32000 ≤ (label y b).toInt)
    (h2 : (label y b).toInt < 32000) :
    IntOp.cmpi .sge (wrapW (safeW y b)) 0#32 = 1#1 ∧ IntOp.cmpi .sle (wrapW (safeW y b)) 31999#32 = 1#1 := by
  obtain ⟨s1, s2⟩ := safeW_range y b h1 h2
  rw [range_tests_iff, wrapW_toInt _ s1 s2]
  split <;> omega

theorem tgt_val (y : IVec SY 32) (b : Fin 2048)
    (hy : IntOp.cmpi .sge (wrapW (safeW y b)) 0#32 = 1#1 ∧ IntOp.cmpi .sle (wrapW (safeW y b)) 31999#32 = 1#1) :
    ((tgt y b).val : Int) = (wrapW (safeW y b)).toInt := by
  obtain ⟨h0, h1⟩ := (range_tests_iff _).1 hy
  show ((min (wrapW (safeW y b)).toInt.toNat (32000 - 1) : Nat) : Int) = _
  omega

theorem good_of_pre [Cert.Pre_finite_inputs.Facts] (x : FVec Ideal Cert.Spec.SX .f32) (W : FVec Ideal Cert.Spec.SW .f32)
    (y : IVec Cert.Spec.SY 32) (h : Cert.Pre_finite_inputs.fn (F := Ideal) x W y = fun _ => 1#1) : Cert.Spec.Good x W y := by
  haveI : Subsingleton Cert.Pre_finite_inputs.S_.Idx := ⟨fun a b => funext fun d => d.elim0⟩
  have h0 := congrFun h ix0
  dsimp only [Cert.Pre_finite_inputs.fn, Cert.Pre_finite_inputs.fn_part1] at h0
  obtain ⟨hxW, hl⟩ := IntOp.andi_eq_one.1 h0
  obtain ⟨hxa, hWa⟩ := IntOp.andi_eq_one.1 hxW
  refine ⟨fun i => ?_, fun i => ?_, fun b => ?_⟩
  · exact real_of_abs_lt_top (x i) (Host.reduce_andi_all _ _ _ _ ix0 hxa i)
  · exact real_of_abs_lt_top (W i) (Host.reduce_andi_all _ _ _ _ ix0 hWa i)
  · have hb := Host.reduce_andi_all _ _ _ _ ix0 hl (ix1 b)
    have hb' : IntOp.andi (IntOp.cmpi .sge (label y b) 4294935296#32) (IntOp.cmpi .slt (label y b) 32000#32) = 1#1 := by
      rw [← slice_label y Cert.Pre_finite_inputs.Facts.slices_S4096_S2048_0 b]
      exact hb
    obtain ⟨r1, r2⟩ := label_range_of_bits _ hb'
    exact tests_of_label_range y b r1 r2

end Cert.PreGood

end
-- ==== Proof.lean ====
/-
  Per row of x · Wᵀ both programs need three numbers: the largest logit, the logarithm of the sum of exp (logit - largest)
  and the sum of the logits.  The kernel accumulates them fifty vocabulary tiles at a time, rescaling the running sum of
  exponentials by exp (old maximum - new maximum); the reference takes one log-softmax of the whole row.  Over the extended
  reals, on finite inputs, these agree, and both programs then apply the same arithmetic to them and to the label's logit.
-/
import proofs.«424783_j8701603741901_3_alg».proof.Defs
import proofs.«424783_j8701603741901_3_alg».proof.Proof.Gen.Kernel
import proofs.«424783_j8701603741901_3_alg».proof.Proof.Gen.KernelIdeal
import proofs.«424783_j8701603741901_3_alg».proof.Proof.Gen.ReferenceIdeal
import proofs.«424783_j8701603741901_3_alg».proof.Proof.Gen.Pre_finite_inputs
import proofs.«424783_j8701603741901_3_alg».proof.Proof.K.Frame
import proofs.«424783_j8701603741901_3_alg».proof.Proof.KI.Result
import proofs.«424783_j8701603741901_3_alg».proof.Proof.KI.Invariant
import proofs.«424783_j8701603741901_3_alg».proof.Proof.KI.Final
import proofs.«424783_j8701603741901_3_alg».proof.Proof.RefRunAll
import proofs.«424783_j8701603741901_3_alg».proof.Proof.RefValue
import proofs.«424783_j8701603741901_3_alg».proof.Proof.PreGood
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

theorem algebraic : Cert.algebraic_KernelIdeal_ReferenceIdeal := by
  intro m ρ m' ρ' hpre hagree
  have hg : ∀ c : Dev Cert.KernelIdeal.nD, Cert.Spec.Good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
    fun c => Cert.PreGood.good_of_pre _ _ _ (hpre c)
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact Cert.KernelIdeal.HandVal.run_result m ρ hg
      (fun c b => Cert.KernelIdeal.HandVal.final m c (Cert.KernelIdeal.HandVal.outs_last m c (hg c)) b)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2]
    exact Cert.ReferenceIdeal.RefValue.out_eq _ _ _ (hg c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
